-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Pre_finite_inputs_ReferenceIdeal.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S1024x1024 : Shape := ⟨2, ![1024, 1024]⟩
abbrev S2048x512 : Shape := ⟨2, ![2048, 512]⟩
abbrev S1024x512 : Shape := ⟨2, ![1024, 512]⟩
abbrev S4 : Shape := ⟨1, ![4]⟩
abbrev S1 : Shape := ⟨1, ![1]⟩
abbrev S_ : Shape := ⟨0, ![]⟩
abbrev S256x1024 : Shape := ⟨2, ![256, 1024]⟩
abbrev S256x512 : Shape := ⟨2, ![256, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S2048x512, .bf16⟩
  | .local _ .vmem, ⟨0, _⟩ => ⟨S1024x1024, .f32⟩
  | .local _ .vmem, ⟨1, _⟩ => ⟨S1024x512, .bf16⟩
  | .local _ .vmem, ⟨2, _⟩ => ⟨S1024x512, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_18 : BitVec 32 := 0#32
  let v26 : BitVec 1 := Scalar.cmpi .eq v5 c0_i32_18
  let v27 : BitVec 32 := Scalar.extui v26
  let c0_i32_23 : BitVec 32 := 0#32
  let v28 : BitVec 1 := Scalar.cmpi .ne v27 c0_i32_23
  v28

def k0_dev1 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v32 : BitVec 32 := Scalar.muli v2 c4_i32_32
  let v33 : BitVec 32 := Scalar.addi c0_i32_33 v32
  let c1_i32_31 : BitVec 32 := 1#32
  let c2_i32_34 : BitVec 32 := 2#32
  let v34 : BitVec 32 := Scalar.muli c1_i32_31 c2_i32_34
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v36 : BitVec 32 := Scalar.muli v8 c1_i32_35
  let v37 : BitVec 32 := Scalar.addi v35 v36
  v37.toNat
def k0_dev2 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v47 : BitVec 32 := Scalar.muli v2 c4_i32_46
  let v48 : BitVec 32 := Scalar.addi c0_i32_47 v47
  let c1_i32_45 : BitVec 32 := 1#32
  let c2_i32_48 : BitVec 32 := 2#32
  let v49 : BitVec 32 := Scalar.muli c1_i32_45 c2_i32_48
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v51 : BitVec 32 := Scalar.muli v8 c1_i32_49
  let v52 : BitVec 32 := Scalar.addi v50 v51
  v52.toNat
def k0_dev3 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v68 : BitVec 32 := Scalar.muli v2 c4_i32_64
  let v69 : BitVec 32 := Scalar.addi c0_i32_65 v68
  let c1_i32_63 : BitVec 32 := 1#32
  let c2_i32_66 : BitVec 32 := 2#32
  let v70 : BitVec 32 := Scalar.muli c1_i32_63 c2_i32_66
  let v71 : BitVec 32 := Scalar.addi v69 v70
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_67 : BitVec 32 := 1#32
  let v72 : BitVec 32 := Scalar.muli v8 c1_i32_67
  let v73 : BitVec 32 := Scalar.addi v71 v72
  v73.toNat
def k0_dev4 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v89 : BitVec 32 := Scalar.muli v2 c4_i32_83
  let v90 : BitVec 32 := Scalar.addi c0_i32_84 v89
  let c1_i32_82 : BitVec 32 := 1#32
  let c2_i32_85 : BitVec 32 := 2#32
  let v91 : BitVec 32 := Scalar.muli c1_i32_82 c2_i32_85
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v93 : BitVec 32 := Scalar.muli v8 c1_i32_86
  let v94 : BitVec 32 := Scalar.addi v92 v93
  v94.toNat
def k0_dev5 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v110 : BitVec 32 := Scalar.muli v2 c4_i32_101
  let v111 : BitVec 32 := Scalar.addi c0_i32_102 v110
  let c1_i32_100 : BitVec 32 := 1#32
  let c2_i32_103 : BitVec 32 := 2#32
  let v112 : BitVec 32 := Scalar.muli c1_i32_100 c2_i32_103
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_104 : BitVec 32 := 1#32
  let v114 : BitVec 32 := Scalar.muli v8 c1_i32_104
  let v115 : BitVec 32 := Scalar.addi v113 v114
  v115.toNat
def k0_cond2 (d0 : Dev nD) : BitVec 1 :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_24 : BitVec 32 := 1#32
  let v29 : BitVec 1 := Scalar.cmpi .eq v5 c1_i32_24
  let v30 : BitVec 32 := Scalar.extui v29
  let c0_i32_29 : BitVec 32 := 0#32
  let v31 : BitVec 1 := Scalar.cmpi .ne v30 c0_i32_29
  v31

def k0_dev6 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v32 : BitVec 32 := Scalar.muli v2 c4_i32_32
  let v33 : BitVec 32 := Scalar.addi c0_i32_33 v32
  let c0_i32_31 : BitVec 32 := 0#32
  let c2_i32_34 : BitVec 32 := 2#32
  let v34 : BitVec 32 := Scalar.muli c0_i32_31 c2_i32_34
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v36 : BitVec 32 := Scalar.muli v8 c1_i32_35
  let v37 : BitVec 32 := Scalar.addi v35 v36
  v37.toNat
def k0_dev7 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v47 : BitVec 32 := Scalar.muli v2 c4_i32_47
  let v48 : BitVec 32 := Scalar.addi c0_i32_48 v47
  let c0_i32_46 : BitVec 32 := 0#32
  let c2_i32_49 : BitVec 32 := 2#32
  let v49 : BitVec 32 := Scalar.muli c0_i32_46 c2_i32_49
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v51 : BitVec 32 := Scalar.muli v8 c1_i32_50
  let v52 : BitVec 32 := Scalar.addi v50 v51
  v52.toNat
def k0_dev8 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v68 : BitVec 32 := Scalar.muli v2 c4_i32_64
  let v69 : BitVec 32 := Scalar.addi c0_i32_65 v68
  let c0_i32_63 : BitVec 32 := 0#32
  let c2_i32_66 : BitVec 32 := 2#32
  let v70 : BitVec 32 := Scalar.muli c0_i32_63 c2_i32_66
  let v71 : BitVec 32 := Scalar.addi v69 v70
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_67 : BitVec 32 := 1#32
  let v72 : BitVec 32 := Scalar.muli v8 c1_i32_67
  let v73 : BitVec 32 := Scalar.addi v71 v72
  v73.toNat
def k0_dev9 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v89 : BitVec 32 := Scalar.muli v2 c4_i32_81
  let v90 : BitVec 32 := Scalar.addi c0_i32_82 v89
  let c0_i32_80 : BitVec 32 := 0#32
  let c2_i32_83 : BitVec 32 := 2#32
  let v91 : BitVec 32 := Scalar.muli c0_i32_80 c2_i32_83
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v93 : BitVec 32 := Scalar.muli v8 c1_i32_84
  let v94 : BitVec 32 := Scalar.addi v92 v93
  v94.toNat
def k0_dev10 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_98 : BitVec 32 := 4#32
  let v110 : BitVec 32 := Scalar.muli v2 c4_i32_98
  let v111 : BitVec 32 := Scalar.addi c0_i32_99 v110
  let c0_i32_97 : BitVec 32 := 0#32
  let c2_i32_100 : BitVec 32 := 2#32
  let v112 : BitVec 32 := Scalar.muli c0_i32_97 c2_i32_100
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_101 : BitVec 32 := 1#32
  let v114 : BitVec 32 := Scalar.muli v8 c1_i32_101
  let v115 : BitVec 32 := Scalar.addi v113 v114
  v115.toNat

class Facts₀ : Prop where
  inb_S4_S1_0 : ∀ a, (![0] : Fin 1 → Nat) a + S1.size a ≤ S4.size a
  squeezes_S1_S_ : S1.Squeezes S_
  inb_S1024x1024_S256x1024_0_0 : ∀ a, (![0, 0] : Fin 2 → Nat) a + S256x1024.size a ≤ S1024x1024.size a
  inb_S4_S1_1 : ∀ a, (![1] : Fin 1 → Nat) a + S1.size a ≤ S4.size a
  inb_S1024x1024_S256x1024_256_0 : ∀ a, (![256, 0] : Fin 2 → Nat) a + S256x1024.size a ≤ S1024x1024.size a
  inb_S4_S1_2 : ∀ a, (![2] : Fin 1 → Nat) a + S1.size a ≤ S4.size a
  inb_S1024x1024_S256x1024_512_0 : ∀ a, (![512, 0] : Fin 2 → Nat) a + S256x1024.size a ≤ S1024x1024.size a
  inb_S4_S1_3 : ∀ a, (![3] : Fin 1 → Nat) a + S1.size a ≤ S4.size a
  inb_S1024x1024_S256x1024_768_0 : ∀ a, (![768, 0] : Fin 2 → Nat) a + S256x1024.size a ≤ S1024x1024.size a
  hamt_1 : (1#32 : BitVec 32).msb = false
  inb_S1024x1024_S256x512_0_512 : ∀ a, (![0, 512] : Fin 2 → Nat) a + S256x512.size a ≤ S1024x1024.size a
  h_S256x512 : 0 < S256x512.numel
  bitsLt_bf16_f32 : FTy.bits .bf16 < FTy.bits .f32
  inb_S1024x512_S256x512_0_0 : ∀ a, (![0, 0] : Fin 2 → Nat) a + S256x512.size a ≤ S1024x512.size a
  shapeCasts_S256x512_S256x512 : S256x512.ShapeCasts S256x512
  packedbf16_S1024x512_S256x512_0_0 : (Rect.unit (s := S1024x512) ![0, 0] S256x512.size inb_S1024x512_S256x512_0_0).PackedRows (EltTy.packing .bf16)
  inb_S2048x512_S256x512_0_0 : ∀ a, (![0, 0] : Fin 2 → Nat) a + S256x512.size a ≤ S2048x512.size a
  wordsbf16_S1024x512_S256x512_0_0 : (Rect.unit (s := S1024x512) ![0, 0] S256x512.size inb_S1024x512_S256x512_0_0).WholeWords (EltTy.packing .bf16)
  wordsbf16_S2048x512_S256x512_0_0 : (Rect.unit (s := S2048x512) ![0, 0] S256x512.size inb_S2048x512_S256x512_0_0).WholeWords (EltTy.packing .bf16)
  inb_S1024x1024_S256x512_256_512 : ∀ a, (![256, 512] : Fin 2 → Nat) a + S256x512.size a ≤ S1024x1024.size a
  inb_S1024x512_S256x512_256_0 : ∀ a, (![256, 0] : Fin 2 → Nat) a + S256x512.size a ≤ S1024x512.size a
  packedbf16_S1024x512_S256x512_256_0 : (Rect.unit (s := S1024x512) ![256, 0] S256x512.size inb_S1024x512_S256x512_256_0).PackedRows (EltTy.packing .bf16)
  inb_S2048x512_S256x512_256_0 : ∀ a, (![256, 0] : Fin 2 → Nat) a + S256x512.size a ≤ S2048x512.size a
  wordsbf16_S1024x512_S256x512_256_0 : (Rect.unit (s := S1024x512) ![256, 0] S256x512.size inb_S1024x512_S256x512_256_0).WholeWords (EltTy.packing .bf16)
  wordsbf16_S2048x512_S256x512_256_0 : (Rect.unit (s := S2048x512) ![256, 0] S256x512.size inb_S2048x512_S256x512_256_0).WholeWords (EltTy.packing .bf16)
  inb_S1024x1024_S256x512_512_512 : ∀ a, (![512, 512] : Fin 2 → Nat) a + S256x512.size a ≤ S1024x1024.size a
  inb_S1024x512_S256x512_512_0 : ∀ a, (![512, 0] : Fin 2 → Nat) a + S256x512.size a ≤ S1024x512.size a
  packedbf16_S1024x512_S256x512_512_0 : (Rect.unit (s := S1024x512) ![512, 0] S256x512.size inb_S1024x512_S256x512_512_0).PackedRows (EltTy.packing .bf16)
  inb_S2048x512_S256x512_512_0 : ∀ a, (![512, 0] : Fin 2 → Nat) a + S256x512.size a ≤ S2048x512.size a
  wordsbf16_S1024x512_S256x512_512_0 : (Rect.unit (s := S1024x512) ![512, 0] S256x512.size inb_S1024x512_S256x512_512_0).WholeWords (EltTy.packing .bf16)
  wordsbf16_S2048x512_S256x512_512_0 : (Rect.unit (s := S2048x512) ![512, 0] S256x512.size inb_S2048x512_S256x512_512_0).WholeWords (EltTy.packing .bf16)
  inb_S1024x1024_S256x512_768_512 : ∀ a, (![768, 512] : Fin 2 → Nat) a + S256x512.size a ≤ S1024x1024.size a
  inb_S1024x512_S256x512_768_0 : ∀ a, (![768, 0] : Fin 2 → Nat) a + S256x512.size a ≤ S1024x512.size a
  packedbf16_S1024x512_S256x512_768_0 : (Rect.unit (s := S1024x512) ![768, 0] S256x512.size inb_S1024x512_S256x512_768_0).PackedRows (EltTy.packing .bf16)
  inb_S2048x512_S256x512_768_0 : ∀ a, (![768, 0] : Fin 2 → Nat) a + S256x512.size a ≤ S2048x512.size a
  wordsbf16_S1024x512_S256x512_768_0 : (Rect.unit (s := S1024x512) ![768, 0] S256x512.size inb_S1024x512_S256x512_768_0).WholeWords (EltTy.packing .bf16)
  wordsbf16_S2048x512_S256x512_768_0 : (Rect.unit (s := S2048x512) ![768, 0] S256x512.size inb_S2048x512_S256x512_768_0).WholeWords (EltTy.packing .bf16)
  inb_S1024x1024_S256x512_0_0 : ∀ a, (![0, 0] : Fin 2 → Nat) a + S256x512.size a ≤ S1024x1024.size a
  inb_S1024x1024_S256x512_256_0 : ∀ a, (![256, 0] : Fin 2 → Nat) a + S256x512.size a ≤ S1024x1024.size a
  inb_S1024x1024_S256x512_512_0 : ∀ a, (![512, 0] : Fin 2 → Nat) a + S256x512.size a ≤ S1024x1024.size a
  inb_S1024x1024_S256x512_768_0 : ∀ a, (![768, 0] : Fin 2 → Nat) a + S256x512.size a ≤ S1024x1024.size a
  inb_S2048x512_S256x512_1024_0 : ∀ a, (![1024, 0] : Fin 2 → Nat) a + S256x512.size a ≤ S2048x512.size a
  wordsbf16_S2048x512_S256x512_1024_0 : (Rect.unit (s := S2048x512) ![1024, 0] S256x512.size inb_S2048x512_S256x512_1024_0).WholeWords (EltTy.packing .bf16)
  inb_S2048x512_S256x512_1280_0 : ∀ a, (![1280, 0] : Fin 2 → Nat) a + S256x512.size a ≤ S2048x512.size a
  wordsbf16_S2048x512_S256x512_1280_0 : (Rect.unit (s := S2048x512) ![1280, 0] S256x512.size inb_S2048x512_S256x512_1280_0).WholeWords (EltTy.packing .bf16)
  inb_S2048x512_S256x512_1536_0 : ∀ a, (![1536, 0] : Fin 2 → Nat) a + S256x512.size a ≤ S2048x512.size a
  wordsbf16_S2048x512_S256x512_1536_0 : (Rect.unit (s := S2048x512) ![1536, 0] S256x512.size inb_S2048x512_S256x512_1536_0).WholeWords (EltTy.packing .bf16)
  inb_S2048x512_S256x512_1792_0 : ∀ a, (![1792, 0] : Fin 2 → Nat) a + S256x512.size a ≤ S2048x512.size a
  wordsbf16_S2048x512_S256x512_1792_0 : (Rect.unit (s := S2048x512) ![1792, 0] S256x512.size inb_S2048x512_S256x512_1792_0).WholeWords (EltTy.packing .bf16)
  hcc0_scratch3 : 0 + S4.numel ≤ 16
  hcc0_scratch4 : 4 + S4.numel ≤ 16
  hcc0_scratch5 : 8 + S4.numel ≤ 16
  hcc0_scratch6 : 12 + S4.numel ≤ 16
  k0_dev1_lt : ∀ d0 : Dev nD, ∀ (k0_h1 : k0_cond1 d0 = 1#1), (k0_dev1 d0) < nD
  k0_dev2_lt : ∀ d0 : Dev nD, ∀ (k0_h1 : k0_cond1 d0 = 1#1), (k0_dev2 d0) < nD
  k0_dev3_lt : ∀ d0 : Dev nD, ∀ (k0_h1 : k0_cond1 d0 = 1#1), (k0_dev3 d0) < nD
  k0_dev4_lt : ∀ d0 : Dev nD, ∀ (k0_h1 : k0_cond1 d0 = 1#1), (k0_dev4 d0) < nD
  k0_dev5_lt : ∀ d0 : Dev nD, ∀ (k0_h1 : k0_cond1 d0 = 1#1), (k0_dev5 d0) < nD
  k0_dev6_lt : ∀ d0 : Dev nD, ∀ (k0_h2 : k0_cond2 d0 = 1#1), (k0_dev6 d0) < nD
  k0_dev7_lt : ∀ d0 : Dev nD, ∀ (k0_h2 : k0_cond2 d0 = 1#1), (k0_dev7 d0) < nD
  k0_dev8_lt : ∀ d0 : Dev nD, ∀ (k0_h2 : k0_cond2 d0 = 1#1), (k0_dev8 d0) < nD
  k0_dev9_lt : ∀ d0 : Dev nD, ∀ (k0_h2 : k0_cond2 d0 = 1#1), (k0_dev9 d0) < nD
  k0_dev10_lt : ∀ d0 : Dev nD, ∀ (k0_h2 : k0_cond2 d0 = 1#1), (k0_dev10 d0) < nD

variable [Facts₀]

abbrev cc0_scratch3 : DmaSems sig S4 := SemArray.consecutive 0 S4 hcc0_scratch3
abbrev cc0_scratch4 : DmaSems sig S4 := SemArray.consecutive 4 S4 hcc0_scratch4
abbrev cc0_scratch5 : DmaSems sig S4 := SemArray.consecutive 8 S4 hcc0_scratch5
abbrev cc0_scratch6 : DmaSems sig S4 := SemArray.consecutive 12 S4 hcc0_scratch6

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S2048x1024 : Shape := ⟨2, ![2048, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Mesh.lean ====
import proofs.«900490_g7700000000000491_dist_a2a_v7x_xyz2x2x2_y_m1024_n512_bf16_1_alg».proof.Proof.Gen.KernelIdeal.Frame
import proofs.«900490_g7700000000000491_dist_a2a_v7x_xyz2x2x2_y_m1024_n512_bf16_1_alg».proof.Proof.Gen.KernelIdeal.Skeleton
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

def yOf (c : Dev nD) : ℕ := c.val / 2 % 2

def peer (c : Dev nD) : Dev nD := (![2, 3, 0, 1, 6, 7, 4, 5] : Fin 8 → Fin 8) c

theorem peer_peer (c : Dev nD) : peer (peer c) = c := by revert c; decide
theorem peer_ne (c : Dev nD) : peer c ≠ c := by revert c; decide
theorem yOf_lt (c : Dev nD) : yOf c < 2 := Nat.mod_lt _ (by decide)
theorem yOf_peer (c : Dev nD) : yOf (peer c) = 1 - yOf c := by revert c; decide
theorem yOf_cases (c : Dev nD) : yOf c = 0 ∨ yOf c = 1 := by revert c; decide

def peerEquiv : Dev nD ≃ Dev nD := ⟨peer, peer, peer_peer, peer_peer⟩

theorem cond1_iff (c : Dev nD) : k0_cond1 c = 1#1 ↔ yOf c = 0 := by revert c; decide +kernel
theorem cond2_iff (c : Dev nD) : k0_cond2 c = 1#1 ↔ yOf c = 1 := by revert c; decide +kernel

theorem dev_y0 : ∀ c : Dev nD, k0_cond1 c = 1#1 → 4 * (c.val / 4) + c.val % 2 + 2 = (peer c).val := by decide +kernel
theorem dev_y1 : ∀ c : Dev nD, k0_cond2 c = 1#1 → 4 * (c.val / 4) + c.val % 2 = (peer c).val := by decide +kernel

theorem dev1_eq (c : Dev nD) (h : k0_cond1 c = 1#1) : (⟨k0_dev1 c, k0_dev1_lt c h⟩ : Dev nD) = peer c := Fin.ext ((k0_dev1_eq c).trans (dev_y0 c h))
theorem dev2_eq (c : Dev nD) (h : k0_cond1 c = 1#1) : (⟨k0_dev2 c, k0_dev2_lt c h⟩ : Dev nD) = peer c := Fin.ext ((k0_dev2_eq c).trans (dev_y0 c h))
theorem dev3_eq (c : Dev nD) (h : k0_cond1 c = 1#1) : (⟨k0_dev3 c, k0_dev3_lt c h⟩ : Dev nD) = peer c := Fin.ext ((k0_dev3_eq c).trans (dev_y0 c h))
theorem dev4_eq (c : Dev nD) (h : k0_cond1 c = 1#1) : (⟨k0_dev4 c, k0_dev4_lt c h⟩ : Dev nD) = peer c := Fin.ext ((k0_dev4_eq c).trans (dev_y0 c h))
theorem dev5_eq (c : Dev nD) (h : k0_cond1 c = 1#1) : (⟨k0_dev5 c, k0_dev5_lt c h⟩ : Dev nD) = peer c := Fin.ext ((k0_dev5_eq c).trans (dev_y0 c h))
theorem dev6_eq (c : Dev nD) (h : k0_cond2 c = 1#1) : (⟨k0_dev6 c, k0_dev6_lt c h⟩ : Dev nD) = peer c := Fin.ext ((k0_dev6_eq c).trans (dev_y1 c h))
theorem dev7_eq (c : Dev nD) (h : k0_cond2 c = 1#1) : (⟨k0_dev7 c, k0_dev7_lt c h⟩ : Dev nD) = peer c := Fin.ext ((k0_dev7_eq c).trans (dev_y1 c h))
theorem dev8_eq (c : Dev nD) (h : k0_cond2 c = 1#1) : (⟨k0_dev8 c, k0_dev8_lt c h⟩ : Dev nD) = peer c := Fin.ext ((k0_dev8_eq c).trans (dev_y1 c h))
theorem dev9_eq (c : Dev nD) (h : k0_cond2 c = 1#1) : (⟨k0_dev9 c, k0_dev9_lt c h⟩ : Dev nD) = peer c := Fin.ext ((k0_dev9_eq c).trans (dev_y1 c h))
theorem dev10_eq (c : Dev nD) (h : k0_cond2 c = 1#1) : (⟨k0_dev10 c, k0_dev10_lt c h⟩ : Dev nD) = peer c := Fin.ext ((k0_dev10_eq c).trans (dev_y1 c h))

end Cert.KernelIdeal.A2A

end
-- ==== Proof.Schedule.lean ====
import proofs.«900490_g7700000000000491_dist_a2a_v7x_xyz2x2x2_y_m1024_n512_bf16_1_alg».proof.Proof.Mesh

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ (UR sig nD τ × (URounds (GSem nD τ sig) Unit × Counters)) ℕ

abbrev UB : Type := URounds (GSem nD τ sig) Unit
abbrev UU : Type := UR sig nD τ × (UB × Counters)

abbrev EP : Emb (UR sig nD τ) (MT nD τ sig Unit (Elt F) ℕ UU ℕ) := embL
abbrev ER : Emb UB (MT nD τ sig Unit (Elt F) ℕ UU ℕ) := (Emb.inl : Emb UB (UB × Counters)).trans embR

abbrev 𝒱₀ : Variants := Variants.none

abbrev A0 : Memref sig .tc .hbm S1024x1024 .f32 := Memref.whole main_arg0
abbrev A1 : Memref sig .tc .hbm S2048x512 .bf16 := Memref.whole main_v1
abbrev A2 : Memref sig .tc .vmem S1024x1024 .f32 := Memref.whole cc0_scratch0
abbrev A3 : Memref sig .tc .vmem S1024x512 .bf16 := Memref.whole cc0_scratch1
abbrev A4 : Memref sig .tc .vmem S1024x512 .bf16 := Memref.whole cc0_scratch2

/-- The 256 rows from row `o` of the input block, of the three scratch buffers and of the result array. -/
abbrev xAt (o : ℕ) (h : ∀ a, (![o, 0] : Fin 2 → ℕ) a + S256x1024.size a ≤ S1024x1024.size a) : Memref sig .tc .hbm S256x1024 .f32 :=
  A0.slice (Rect.unit (s := S1024x1024) ![o, 0] S256x1024.size h) (fun _ => rfl)
abbrev vAt (o : ℕ) (h : ∀ a, (![o, 0] : Fin 2 → ℕ) a + S256x1024.size a ≤ S1024x1024.size a) : Memref sig .tc .vmem S256x1024 .f32 :=
  A2.slice (Rect.unit (s := S1024x1024) ![o, 0] S256x1024.size h) (fun _ => rfl)
abbrev sAt (o : ℕ) (h : ∀ a, (![o, 0] : Fin 2 → ℕ) a + S256x512.size a ≤ S1024x512.size a) : Memref sig .tc .vmem S256x512 .bf16 :=
  A3.slice (Rect.unit (s := S1024x512) ![o, 0] S256x512.size h) (fun _ => rfl)
abbrev lAt (o : ℕ) (h : ∀ a, (![o, 0] : Fin 2 → ℕ) a + S256x512.size a ≤ S1024x512.size a) : Memref sig .tc .vmem S256x512 .bf16 :=
  A4.slice (Rect.unit (s := S1024x512) ![o, 0] S256x512.size h) (fun _ => rfl)
abbrev oAt (o : ℕ) (h : ∀ a, (![o, 0] : Fin 2 → ℕ) a + S256x512.size a ≤ S2048x512.size a) : Memref sig .tc .hbm S256x512 .bf16 :=
  A1.slice (Rect.unit (s := S2048x512) ![o, 0] S256x512.size h) (fun _ => rfl)

abbrev xsl0 := xAt 0 Facts₀.inb_S1024x1024_S256x1024_0_0
abbrev vsl0 := vAt 0 Facts₀.inb_S1024x1024_S256x1024_0_0
abbrev ssl0 := sAt 0 Facts₀.inb_S1024x512_S256x512_0_0
abbrev lsl0 := lAt 0 Facts₀.inb_S1024x512_S256x512_0_0
abbrev xsl1 := xAt 256 Facts₀.inb_S1024x1024_S256x1024_256_0
abbrev vsl1 := vAt 256 Facts₀.inb_S1024x1024_S256x1024_256_0
abbrev ssl1 := sAt 256 Facts₀.inb_S1024x512_S256x512_256_0
abbrev lsl1 := lAt 256 Facts₀.inb_S1024x512_S256x512_256_0
abbrev xsl2 := xAt 512 Facts₀.inb_S1024x1024_S256x1024_512_0
abbrev vsl2 := vAt 512 Facts₀.inb_S1024x1024_S256x1024_512_0
abbrev ssl2 := sAt 512 Facts₀.inb_S1024x512_S256x512_512_0
abbrev lsl2 := lAt 512 Facts₀.inb_S1024x512_S256x512_512_0
abbrev xsl3 := xAt 768 Facts₀.inb_S1024x1024_S256x1024_768_0
abbrev vsl3 := vAt 768 Facts₀.inb_S1024x1024_S256x1024_768_0
abbrev ssl3 := sAt 768 Facts₀.inb_S1024x512_S256x512_768_0
abbrev lsl3 := lAt 768 Facts₀.inb_S1024x512_S256x512_768_0
abbrev osl0 := oAt 0 Facts₀.inb_S2048x512_S256x512_0_0
abbrev osl1 := oAt 256 Facts₀.inb_S2048x512_S256x512_256_0
abbrev osl2 := oAt 512 Facts₀.inb_S2048x512_S256x512_512_0
abbrev osl3 := oAt 768 Facts₀.inb_S2048x512_S256x512_768_0
abbrev osl4 := oAt 1024 Facts₀.inb_S2048x512_S256x512_1024_0
abbrev osl5 := oAt 1280 Facts₀.inb_S2048x512_S256x512_1280_0
abbrev osl6 := oAt 1536 Facts₀.inb_S2048x512_S256x512_1536_0
abbrev osl7 := oAt 1792 Facts₀.inb_S2048x512_S256x512_1792_0

abbrev barS : Sem sig := (SemArray.scalar (sig.barrier 0 rfl) : Sems sig S_).sem
abbrev dsem (k : Nat) (h : k < 16 := by decide) : DmaSem sig := ⟨k, h⟩

abbrev barCell (c : Dev nD) : GSem nD τ sig := ((c : Thread nD τ), .reg barS)
abbrev sendCell0 (c : Dev nD) : GSem nD τ sig := ((c : Thread nD τ), .dma (dsem 4))
abbrev recvCell0 (c : Dev nD) : GSem nD τ sig := ((c : Thread nD τ), .dma (dsem 8))
abbrev sendCell1 (c : Dev nD) : GSem nD τ sig := ((c : Thread nD τ), .dma (dsem 5))
abbrev recvCell1 (c : Dev nD) : GSem nD τ sig := ((c : Thread nD τ), .dma (dsem 9))
abbrev sendCell2 (c : Dev nD) : GSem nD τ sig := ((c : Thread nD τ), .dma (dsem 6))
abbrev recvCell2 (c : Dev nD) : GSem nD τ sig := ((c : Thread nD τ), .dma (dsem 10))
abbrev sendCell3 (c : Dev nD) : GSem nD τ sig := ((c : Thread nD τ), .dma (dsem 7))
abbrev recvCell3 (c : Dev nD) : GSem nD τ sig := ((c : Thread nD τ), .dma (dsem 11))

abbrev cellSems : List (SemLoc sig) :=
  [.reg barS, .dma (dsem 4), .dma (dsem 5), .dma (dsem 6), .dma (dsem 7), .dma (dsem 8), .dma (dsem 9), .dma (dsem 10), .dma (dsem 11)]

abbrev N : ℕ := (osl0 : Memref sig .tc .hbm S256x512 .bf16).view.dmaCredit
theorem N_pos : 0 < N := View.dmaCredit_pos _ (by decide)

variable (m : (ℓ : Loc nD τ sig) → Buf (Elt F) ℓ)

def cvt (x : Elt F .f32) : Elt F .bf16 := FloatOps.truncf .bf16 Facts₀.bitsLt_bf16_f32 x

def colsOf (X : S1024x1024.Idx → Elt F .f32) (y : ℕ) : S1024x512.Idx → Elt F .bf16 := fun j =>
  cvt (X (ix2 (j 0) (⟨512 * (y % 2) + (j 1).val, by
    have h1 : (j 1).val < 512 := (j 1).isLt
    have h2 : y % 2 < 2 := Nat.mod_lt _ (by decide)
    omega⟩ : Fin 1024)))

def sendHalf (c : Dev nD) : S1024x512.Idx → Elt F .bf16 := colsOf (m ((c : Thread nD τ).loc main_arg0)) (1 - yOf c)

def keepHalf (c : Dev nD) : S1024x512.Idx → Elt F .bf16 := colsOf (m ((c : Thread nD τ).loc main_arg0)) (yOf c)

def outF (c : Dev nD) : S2048x512.Idx → Elt F .bf16 := fun j =>
  let r : Fin 1024 := ⟨(j 0).val % 1024, Nat.mod_lt _ (by decide)⟩
  if (j 0).val / 1024 = yOf c then keepHalf m c (ix2 r (j 1)) else sendHalf m (peer c) (ix2 r (j 1))

/-- A row block held whole at contents `f`. -/
abbrev pt {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f

/-- An arrival on device `d`: rows `ok …` of its result array hold rows `oi …` of what its partner sends, written over what they held at launch. -/
abbrev landed (ok oi : ℕ) (d : Dev nD)
    (hk : ∀ a, (![ok, 0] : Fin 2 → ℕ) a + S256x512.size a ≤ S2048x512.size a := by decide)
    (hi : ∀ a, (![oi, 0] : Fin 2 → ℕ) a + S256x512.size a ≤ S1024x512.size a := by decide) : sProp 𝕄 :=
  pt (oAt ok hk) d ((oAt ok hk).view.write (Elt F) (m ((oAt ok hk).view.loc (d : Thread nD τ))) ((sAt oi hi).view.read (Elt F) (sendHalf m (peer d))) Finset.univ)

def sendPay0 (d : Dev nD) : sProp 𝕄 := iprop(∃ f, pt ssl0 d f)
def recvPay0 (d : Dev nD) : sProp 𝕄 := if yOf d = 0 then landed m 1024 0 d else landed m 0 0 d
def sendPay1 (d : Dev nD) : sProp 𝕄 := iprop(∃ f, pt ssl1 d f)
def recvPay1 (d : Dev nD) : sProp 𝕄 := if yOf d = 0 then landed m 1280 256 d else landed m 256 256 d
def sendPay2 (d : Dev nD) : sProp 𝕄 := iprop(∃ f, pt ssl2 d f)
def recvPay2 (d : Dev nD) : sProp 𝕄 := if yOf d = 0 then landed m 1536 512 d else landed m 512 512 d
def sendPay3 (d : Dev nD) : sProp 𝕄 := iprop(∃ f, pt ssl3 d f)
def recvPay3 (d : Dev nD) : sProp 𝕄 := if yOf d = 0 then landed m 1792 768 d else landed m 768 768 d
/-- The handshake hands over the four row blocks of the partner's result array that this device's copies fill, as launched. -/
def barPay (d : Dev nD) : sProp 𝕄 :=
  if yOf d = 0 then iprop(pt osl0 (peer d) (m _) ∗ pt osl1 (peer d) (m _) ∗ pt osl2 (peer d) (m _) ∗ pt osl3 (peer d) (m _)) else iprop(pt osl4 (peer d) (m _) ∗ pt osl5 (peer d) (m _) ∗ pt osl6 (peer d) (m _) ∗ pt osl7 (peer d) (m _))

abbrev IsCell (g : GSem nD τ sig) : Prop := g.1.2 = .tc ∧ g.2 ∈ cellSems

def rd : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay m g.1.1
    else if g.2 = .dma (dsem 4) then sendPay0 g.1.1
    else if g.2 = .dma (dsem 5) then sendPay1 g.1.1
    else if g.2 = .dma (dsem 6) then sendPay2 g.1.1
    else if g.2 = .dma (dsem 7) then sendPay3 g.1.1
    else if g.2 = .dma (dsem 8) then recvPay0 m g.1.1
    else if g.2 = .dma (dsem 9) then recvPay1 m g.1.1
    else if g.2 = .dma (dsem 10) then recvPay2 m g.1.1
    else if g.2 = .dma (dsem 11) then recvPay3 m g.1.1
    else iprop(emp)
  amount_pos g _ _ _ := by
    by_cases h : g.2 = .reg barS
    · rw [if_pos h]; exact Nat.one_pos
    · rw [if_neg h]; exact N_pos

section Tables
variable (c : Dev nD)

theorem dma_ne_bar (k : Nat) (h : k < 16) : (SemLoc.dma (dsem k h) : SemLoc sig) ≠ .reg barS := fun h => by cases h

theorem duties_cell (s : SemLoc sig) (hs : s ∈ cellSems) : (rd (F := F) m).duties ((c : Thread nD τ), s) 0 = {()} := by
  dsimp only [rd]; exact if_pos ⟨rfl, rfl, hs⟩
theorem duties_later (g : GSem nD τ sig) : ∀ r, 1 ≤ r → (rd (F := F) m).duties g r = ∅ :=
  fun r hr => by dsimp only [rd]; rw [if_neg fun h => by omega]

@[sl_rounds] theorem amount_dma (k : DmaSem sig) (d : Unit) : (rd (F := F) m).amount ((c : Thread nD τ), .dma k) 0 d = N := by
  dsimp only [rd]; exact if_neg fun h => by cases h
theorem expect_of {g : GSem nD τ sig} {n : ℕ} (hd : (rd (F := F) m).duties g 0 = {()}) (ha : ∀ d, (rd (F := F) m).amount g 0 d = n) :
    (rd (F := F) m).expect g 0 = n := by
  unfold Schedule.expect Schedule.amountOf; rw [hd, Finset.sum_singleton, ha]

@[sl_rounds] theorem duties_bar : (rd (F := F) m).duties (barCell c) 0 = {()} := duties_cell m c _ (by decide)
@[sl_rounds] theorem amount_bar (d : Unit) : (rd (F := F) m).amount (barCell c) 0 d = 1 := by dsimp only [rd]; exact if_pos rfl
@[sl_rounds] theorem expect_bar : (rd (F := F) m).expect (barCell c) 0 = 1 := expect_of m (duties_bar m c) (amount_bar m c)
theorem payload_bar (d : Unit) : (rd (F := F) m).payload (barCell c) 0 d = barPay m c := by
  dsimp only [rd]; rw [if_pos rfl]

@[sl_rounds] theorem duties_send0 : (rd (F := F) m).duties (sendCell0 c) 0 = {()} := duties_cell m c _ (by decide)
@[sl_rounds] theorem expect_send0 : (rd (F := F) m).expect (sendCell0 c) 0 = N := expect_of m (duties_send0 m c) (amount_dma m c _)
theorem payload_send0 (d : Unit) : (rd (F := F) m).payload (sendCell0 c) 0 d = sendPay0 c := by
  dsimp only [rd]; rw [if_neg (dma_ne_bar _ _), if_pos rfl]

@[sl_rounds] theorem duties_send1 : (rd (F := F) m).duties (sendCell1 c) 0 = {()} := duties_cell m c _ (by decide)
@[sl_rounds] theorem expect_send1 : (rd (F := F) m).expect (sendCell1 c) 0 = N := expect_of m (duties_send1 m c) (amount_dma m c _)
theorem payload_send1 (d : Unit) : (rd (F := F) m).payload (sendCell1 c) 0 d = sendPay1 c := by
  dsimp only [rd]; rw [if_neg (dma_ne_bar _ _), if_neg (by decide), if_pos rfl]

@[sl_rounds] theorem duties_send2 : (rd (F := F) m).duties (sendCell2 c) 0 = {()} := duties_cell m c _ (by decide)
@[sl_rounds] theorem expect_send2 : (rd (F := F) m).expect (sendCell2 c) 0 = N := expect_of m (duties_send2 m c) (amount_dma m c _)
theorem payload_send2 (d : Unit) : (rd (F := F) m).payload (sendCell2 c) 0 d = sendPay2 c := by
  dsimp only [rd]; rw [if_neg (dma_ne_bar _ _), if_neg (by decide), if_neg (by decide), if_pos rfl]

@[sl_rounds] theorem duties_send3 : (rd (F := F) m).duties (sendCell3 c) 0 = {()} := duties_cell m c _ (by decide)
@[sl_rounds] theorem expect_send3 : (rd (F := F) m).expect (sendCell3 c) 0 = N := expect_of m (duties_send3 m c) (amount_dma m c _)
theorem payload_send3 (d : Unit) : (rd (F := F) m).payload (sendCell3 c) 0 d = sendPay3 c := by
  dsimp only [rd]; rw [if_neg (dma_ne_bar _ _), if_neg (by decide), if_neg (by decide), if_neg (by decide), if_pos rfl]

@[sl_rounds] theorem duties_recv0 : (rd (F := F) m).duties (recvCell0 c) 0 = {()} := duties_cell m c _ (by decide)
@[sl_rounds] theorem expect_recv0 : (rd (F := F) m).expect (recvCell0 c) 0 = N := expect_of m (duties_recv0 m c) (amount_dma m c _)
theorem payload_recv0 (d : Unit) : (rd (F := F) m).payload (recvCell0 c) 0 d = recvPay0 m c := by
  dsimp only [rd]; rw [if_neg (dma_ne_bar _ _), if_neg (by decide), if_neg (by decide), if_neg (by decide), if_neg (by decide), if_pos rfl]

@[sl_rounds] theorem duties_recv1 : (rd (F := F) m).duties (recvCell1 c) 0 = {()} := duties_cell m c _ (by decide)
@[sl_rounds] theorem expect_recv1 : (rd (F := F) m).expect (recvCell1 c) 0 = N := expect_of m (duties_recv1 m c) (amount_dma m c _)
theorem payload_recv1 (d : Unit) : (rd (F := F) m).payload (recvCell1 c) 0 d = recvPay1 m c := by
  dsimp only [rd]; rw [if_neg (dma_ne_bar _ _), if_neg (by decide), if_neg (by decide), if_neg (by decide), if_neg (by decide), if_neg (by decide), if_pos rfl]

@[sl_rounds] theorem duties_recv2 : (rd (F := F) m).duties (recvCell2 c) 0 = {()} := duties_cell m c _ (by decide)
@[sl_rounds] theorem expect_recv2 : (rd (F := F) m).expect (recvCell2 c) 0 = N := expect_of m (duties_recv2 m c) (amount_dma m c _)
theorem payload_recv2 (d : Unit) : (rd (F := F) m).payload (recvCell2 c) 0 d = recvPay2 m c := by
  dsimp only [rd]; rw [if_neg (dma_ne_bar _ _), if_neg (by decide), if_neg (by decide), if_neg (by decide), if_neg (by decide), if_neg (by decide), if_neg (by decide), if_pos rfl]

@[sl_rounds] theorem duties_recv3 : (rd (F := F) m).duties (recvCell3 c) 0 = {()} := duties_cell m c _ (by decide)
@[sl_rounds] theorem expect_recv3 : (rd (F := F) m).expect (recvCell3 c) 0 = N := expect_of m (duties_recv3 m c) (amount_dma m c _)
theorem payload_recv3 (d : Unit) : (rd (F := F) m).payload (recvCell3 c) 0 d = recvPay3 m c := by
  dsimp only [rd]; rw [if_neg (dma_ne_bar _ _), if_neg (by decide), if_neg (by decide), if_neg (by decide), if_neg (by decide), if_neg (by decide), if_neg (by decide), if_neg (by decide), if_pos rfl]

@[sl_rounds] theorem payloadT_send0 (d : Unit) : (rd (F := F) m).payload (sendCell0 c) 0 d = iprop(∃ f, pt ssl0 c f) := by
  rw [payload_send0]; rfl
@[sl_rounds] theorem payloadT_recv0_y0 (hy : yOf c = 0) (d : Unit) : (rd (F := F) m).payload (recvCell0 c) 0 d = landed m 1024 0 c := by
  rw [payload_recv0]; unfold recvPay0; rw [if_pos hy]
@[sl_rounds] theorem payloadT_recv0_y1 (hy : yOf c = 1) (d : Unit) : (rd (F := F) m).payload (recvCell0 c) 0 d = landed m 0 0 c := by
  rw [payload_recv0]; unfold recvPay0; rw [if_neg (by omega)]
@[sl_rounds] theorem payloadT_send1 (d : Unit) : (rd (F := F) m).payload (sendCell1 c) 0 d = iprop(∃ f, pt ssl1 c f) := by
  rw [payload_send1]; rfl
@[sl_rounds] theorem payloadT_recv1_y0 (hy : yOf c = 0) (d : Unit) : (rd (F := F) m).payload (recvCell1 c) 0 d = landed m 1280 256 c := by
  rw [payload_recv1]; unfold recvPay1; rw [if_pos hy]
@[sl_rounds] theorem payloadT_recv1_y1 (hy : yOf c = 1) (d : Unit) : (rd (F := F) m).payload (recvCell1 c) 0 d = landed m 256 256 c := by
  rw [payload_recv1]; unfold recvPay1; rw [if_neg (by omega)]
@[sl_rounds] theorem payloadT_send2 (d : Unit) : (rd (F := F) m).payload (sendCell2 c) 0 d = iprop(∃ f, pt ssl2 c f) := by
  rw [payload_send2]; rfl
@[sl_rounds] theorem payloadT_recv2_y0 (hy : yOf c = 0) (d : Unit) : (rd (F := F) m).payload (recvCell2 c) 0 d = landed m 1536 512 c := by
  rw [payload_recv2]; unfold recvPay2; rw [if_pos hy]
@[sl_rounds] theorem payloadT_recv2_y1 (hy : yOf c = 1) (d : Unit) : (rd (F := F) m).payload (recvCell2 c) 0 d = landed m 512 512 c := by
  rw [payload_recv2]; unfold recvPay2; rw [if_neg (by omega)]
@[sl_rounds] theorem payloadT_send3 (d : Unit) : (rd (F := F) m).payload (sendCell3 c) 0 d = iprop(∃ f, pt ssl3 c f) := by
  rw [payload_send3]; rfl
@[sl_rounds] theorem payloadT_recv3_y0 (hy : yOf c = 0) (d : Unit) : (rd (F := F) m).payload (recvCell3 c) 0 d = landed m 1792 768 c := by
  rw [payload_recv3]; unfold recvPay3; rw [if_pos hy]
@[sl_rounds] theorem payloadT_recv3_y1 (hy : yOf c = 1) (d : Unit) : (rd (F := F) m).payload (recvCell3 c) 0 d = landed m 768 768 c := by
  rw [payload_recv3]; unfold recvPay3; rw [if_neg (by omega)]
@[sl_rounds] theorem payloadT_bar_y0 (hy : yOf c = 0) (d : Unit) : (rd (F := F) m).payload (barCell c) 0 d = iprop(pt osl0 (peer c) (m _) ∗ pt osl1 (peer c) (m _) ∗ pt osl2 (peer c) (m _) ∗ pt osl3 (peer c) (m _)) := by
  rw [payload_bar]; unfold barPay; rw [if_pos hy]
@[sl_rounds] theorem payloadT_bar_y1 (hy : yOf c = 1) (d : Unit) : (rd (F := F) m).payload (barCell c) 0 d = iprop(pt osl4 (peer c) (m _) ∗ pt osl5 (peer c) (m _) ∗ pt osl6 (peer c) (m _) ∗ pt osl7 (peer c) (m _)) := by
  rw [payload_bar]; unfold barPay; rw [if_neg (by omega)]
@[sl_rounds] theorem payloadT_bar_peer_y0 (hy : yOf c = 0) (d : Unit) : (rd (F := F) m).payload (barCell (peer c)) 0 d = iprop(pt osl4 c (m _) ∗ pt osl5 c (m _) ∗ pt osl6 c (m _) ∗ pt osl7 c (m _)) := by
  rw [payloadT_bar_y1 m (peer c) (by rw [yOf_peer, hy])]; rw [peer_peer]
@[sl_rounds] theorem payloadT_bar_peer_y1 (hy : yOf c = 1) (d : Unit) : (rd (F := F) m).payload (barCell (peer c)) 0 d = iprop(pt osl0 c (m _) ∗ pt osl1 c (m _) ∗ pt osl2 c (m _) ∗ pt osl3 c (m _)) := by
  rw [payloadT_bar_y0 m (peer c) (by rw [yOf_peer, hy])]; rw [peer_peer]

end Tables

instance sendPay0_storable (d : Dev nD) : BI.Storable (upEmb : UEmb _ 𝕄) (sendPay0 (F := F) d) := by unfold sendPay0; infer_instance
instance recvPay0_storable (d : Dev nD) : BI.Storable (upEmb : UEmb _ 𝕄) (recvPay0 (F := F) m d) := by unfold recvPay0; split <;> infer_instance
instance sendPay1_storable (d : Dev nD) : BI.Storable (upEmb : UEmb _ 𝕄) (sendPay1 (F := F) d) := by unfold sendPay1; infer_instance
instance recvPay1_storable (d : Dev nD) : BI.Storable (upEmb : UEmb _ 𝕄) (recvPay1 (F := F) m d) := by unfold recvPay1; split <;> infer_instance
instance sendPay2_storable (d : Dev nD) : BI.Storable (upEmb : UEmb _ 𝕄) (sendPay2 (F := F) d) := by unfold sendPay2; infer_instance
instance recvPay2_storable (d : Dev nD) : BI.Storable (upEmb : UEmb _ 𝕄) (recvPay2 (F := F) m d) := by unfold recvPay2; split <;> infer_instance
instance sendPay3_storable (d : Dev nD) : BI.Storable (upEmb : UEmb _ 𝕄) (sendPay3 (F := F) d) := by unfold sendPay3; infer_instance
instance recvPay3_storable (d : Dev nD) : BI.Storable (upEmb : UEmb _ 𝕄) (recvPay3 (F := F) m d) := by unfold recvPay3; split <;> infer_instance
instance barPay_storable (d : Dev nD) : BI.Storable (upEmb : UEmb _ 𝕄) (barPay (F := F) m d) := by unfold barPay; split <;> infer_instance

instance rd_payload_storable (g : GSem nD τ sig) (r : ℕ) (d : Unit) :
    BI.Storable (upEmb : UEmb _ 𝕄) ((rd (F := F) m).payload g r d) := by
  dsimp only [rd]
  (repeat' split) <;> infer_instance

end Cert.KernelIdeal.A2A

end
-- ==== Proof.Levels.lean ====
import proofs.«900490_g7700000000000491_dist_a2a_v7x_xyz2x2x2_y_m1024_n512_bf16_1_alg».proof.Proof.Schedule

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

abbrev arrSems : List (SemLoc sig) := [.dma (dsem 8), .dma (dsem 9), .dma (dsem 10), .dma (dsem 11)]

def L (g : GSem nD τ sig) : Finset Unit := if g.1.2 = .tc then {()} else ∅

def lv (g : GSem nD τ sig) (_ : Unit) : ℕ := if g.2 = .reg barS then 1 else if g.2 ∈ arrSems then 2 else 0

theorem L_of_ne (g : GSem nD τ sig) (h : g.1.2 ≠ .tc) : L g = ∅ := if_neg h
theorem L_tc (c : Dev nD) (sm : SemLoc sig) : L ((c : Thread nD τ), sm) = {()} := if_pos rfl

def OnArrivals (O : CellTallies nD τ sig Unit) : Prop := ∀ g u, 0 < O g u → g.1.2 = .tc ∧ g.2 ∈ arrSems

theorem onArrivals_zero : OnArrivals (0 : CellTallies nD τ sig Unit) := fun g u h => by
  rw [Pi.zero_apply, Finsupp.zero_apply] at h; exact absurd h (Nat.lt_irrefl 0)

theorem onArrivals_add {O₁ O₂ : CellTallies nD τ sig Unit} (h₁ : OnArrivals O₁) (h₂ : OnArrivals O₂) : OnArrivals (O₁ + O₂) := fun g u h => by
  rw [Pi.add_apply, Finsupp.add_apply] at h
  rcases Nat.add_pos_iff_pos_or_pos.mp h with h | h
  · exact h₁ g u h
  · exact h₂ g u h

theorem onArrivals_tally (c : Dev nD) (s : SemLoc sig) (hs : s ∈ arrSems) (n : ℕ) : OnArrivals (tallyAt ((c : Thread nD τ), s) () n) := fun g u h => by
  rw [tallyAt_apply] at h
  by_cases hg : g = ((c : Thread nD τ), s) ∧ u = ()
  · rw [hg.1]; exact ⟨rfl, hs⟩
  · rw [if_neg hg] at h; exact absurd h (Nat.lt_irrefl 0)

theorem lv_arr {g : GSem nD τ sig} (h : g.2 ∈ arrSems) (u : Unit) : lv g u = 2 := by
  have hne : g.2 ≠ .reg barS := fun h' => by rw [h'] at h; revert h; decide
  dsimp only [lv]; rw [if_neg hne, if_pos h]

theorem lv_low (c : Dev nD) (sm : SemLoc sig) (h : sm ∉ arrSems) (u : Unit) : lv ((c : Thread nD τ), sm) u ≤ 1 := by
  dsimp only [lv]
  by_cases hb : sm = .reg barS
  · rw [if_pos hb]
  · rw [if_neg hb, if_neg h]; exact Nat.zero_le 1

theorem mayWait_of_onArrivals (c : Dev nD) (sm : SemLoc sig) (O : CellTallies nD τ sig Unit) (hsm : sm ∉ arrSems) (hO : OnArrivals O) :
    (levAts L lv : sProp 𝕄) ⊢ MayWait (c : Thread nD τ) sm () O :=
  MayOwe.of_cut (L := L) (lev := lv) 1
    (fun p hp => by rw [Finset.mem_singleton.mp hp, L_tc]; exact Finset.mem_singleton_self _)
    (fun g u hg => by
      obtain ⟨⟨d, pr⟩, s⟩ := g
      have h := (hO _ u hg).1
      have h' : pr = .tc := h
      subst h'
      exact (L_tc d s).symm ▸ Finset.mem_singleton_self _)
    (fun p hp => by rw [Finset.mem_singleton.mp hp]; exact lv_low c sm hsm ())
    (fun g u hg => by rw [lv_arr (hO g u hg).2]; decide)

end Cert.KernelIdeal.A2A

end
-- ==== Proof.Holdings.lean ====
import proofs.«900490_g7700000000000491_dist_a2a_v7x_xyz2x2x2_y_m1024_n512_bf16_1_alg».proof.Proof.Levels

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ)

abbrev csem : Fin 9 → SemLoc sig := fun
  | 0 => .reg barS | 1 => .dma (dsem 4) | 2 => .dma (dsem 5) | 3 => .dma (dsem 6) | 4 => .dma (dsem 7)
  | 5 => .dma (dsem 8) | 6 => .dma (dsem 9) | 7 => .dma (dsem 10) | 8 => .dma (dsem 11)
abbrev kcell (ck : Dev nD × Fin 9) : GSem nD τ sig := ((ck.1 : Thread nD τ), csem ck.2)

def O₀ (c : Dev nD) : CellTallies nD τ sig Unit :=
  0 + tallyAt (recvCell3 (peer c)) () N + tallyAt (recvCell2 (peer c)) () N + tallyAt (recvCell1 (peer c)) () N + tallyAt (recvCell0 (peer c)) () N
    + tallyAt (barCell (peer c)) () 1

def invs (K : Dev nD × Fin 9 → ℕ) (c : Dev nD) : sProp 𝕄 :=
  iprop(cellInv ER (rd m) (K (c, 0)) (barCell c)
    ∗ cellInv ER (rd m) (K (c, 1)) (sendCell0 c) ∗ cellInv ER (rd m) (K (c, 2)) (sendCell1 c) ∗ cellInv ER (rd m) (K (c, 3)) (sendCell2 c) ∗ cellInv ER (rd m) (K (c, 4)) (sendCell3 c)
    ∗ cellInv ER (rd m) (K (c, 5)) (recvCell0 c) ∗ cellInv ER (rd m) (K (c, 6)) (recvCell1 c) ∗ cellInv ER (rd m) (K (c, 7)) (recvCell2 c) ∗ cellInv ER (rd m) (K (c, 8)) (recvCell3 c)
    ∗ cellInv ER (rd m) (K (peer c, 0)) (barCell (peer c))
    ∗ cellInv ER (rd m) (K (peer c, 5)) (recvCell0 (peer c)) ∗ cellInv ER (rd m) (K (peer c, 6)) (recvCell1 (peer c)) ∗ cellInv ER (rd m) (K (peer c, 7)) (recvCell2 (peer c)) ∗ cellInv ER (rd m) (K (peer c, 8)) (recvCell3 (peer c)))

instance invs_persistent (K : Dev nD × Fin 9 → ℕ) (c : Dev nD) : BI.Persistent (invs m K c) := by unfold invs; infer_instance

def positions (c : Dev nD) : sProp 𝕄 :=
  iprop(atPos ER (barCell c) 0 ∅ 0
    ∗ atPos ER (sendCell0 c) 0 ∅ 0 ∗ atPos ER (sendCell1 c) 0 ∅ 0 ∗ atPos ER (sendCell2 c) 0 ∅ 0 ∗ atPos ER (sendCell3 c) 0 ∅ 0
    ∗ atPos ER (recvCell0 c) 0 ∅ 0 ∗ atPos ER (recvCell1 c) 0 ∅ 0 ∗ atPos ER (recvCell2 c) 0 ∅ 0 ∗ atPos ER (recvCell3 c) 0 ∅ 0)

def reachedMarks (c : Dev nD) : sProp 𝕄 :=
  iprop(reached ER (barCell (peer c)) 0
    ∗ reached ER (recvCell0 (peer c)) 0 ∗ reached ER (recvCell1 (peer c)) 0 ∗ reached ER (recvCell2 (peer c)) 0 ∗ reached ER (recvCell3 (peer c)) 0
    ∗ reached ER (sendCell0 c) 0 ∗ reached ER (sendCell1 c) 0 ∗ reached ER (sendCell2 c) 0 ∗ reached ER (sendCell3 c) 0)

instance reachedMarks_persistent (c : Dev nD) : BI.Persistent (reachedMarks (F := F) c) := by unfold reachedMarks; infer_instance

def payToks (c : Dev nD) : sProp 𝕄 :=
  iprop(dutyTok ER (barCell (peer c)) 0 ()
    ∗ dutyTok ER (recvCell0 (peer c)) 0 () ∗ dutyTok ER (recvCell1 (peer c)) 0 () ∗ dutyTok ER (recvCell2 (peer c)) 0 () ∗ dutyTok ER (recvCell3 (peer c)) 0 ()
    ∗ dutyTok ER (sendCell0 c) 0 () ∗ dutyTok ER (sendCell1 c) 0 () ∗ dutyTok ER (sendCell2 c) 0 () ∗ dutyTok ER (sendCell3 c) 0 ())

def ghost (K : Dev nD × Fin 9 → ℕ) (c : Dev nD) : sProp 𝕄 :=
  iprop(invs m K c ∗ positions c ∗ reachedMarks c ∗ payToks c)

def waitCred (c : Dev nD) : sProp 𝕄 :=
  iprop(cred (tallyAt (barCell c) () 1)
    ∗ cred (tallyAt (recvCell0 c) () N) ∗ cred (tallyAt (recvCell1 c) () N) ∗ cred (tallyAt (recvCell2 c) () N) ∗ cred (tallyAt (recvCell3 c) () N))

def ownZero (c : Dev nD) : sProp 𝕄 :=
  iprop(semVal ((c : Thread nD τ), .dma (dsem 0)) 0 ∗ semVal ((c : Thread nD τ), .dma (dsem 1)) 0 ∗ semVal ((c : Thread nD τ), .dma (dsem 2)) 0 ∗ semVal ((c : Thread nD τ), .dma (dsem 3)) 0
    ∗ semVal ((c : Thread nD τ), .dma (dsem 12)) 0 ∗ semVal ((c : Thread nD τ), .dma (dsem 13)) 0 ∗ semVal ((c : Thread nD τ), .dma (dsem 14)) 0 ∗ semVal ((c : Thread nD τ), .dma (dsem 15)) 0)

def inBlocks (c : Dev nD) : sProp 𝕄 :=
  iprop(pt xsl0 c (m _) ∗ pt xsl1 c (m _) ∗ pt xsl2 c (m _) ∗ pt xsl3 c (m _))

def scratchBlocks (c : Dev nD) : sProp 𝕄 :=
  iprop((∃ f, pt vsl0 c f) ∗ (∃ f, pt vsl1 c f) ∗ (∃ f, pt vsl2 c f) ∗ (∃ f, pt vsl3 c f)
    ∗ (∃ f, pt ssl0 c f) ∗ (∃ f, pt ssl1 c f) ∗ (∃ f, pt ssl2 c f) ∗ (∃ f, pt ssl3 c f)
    ∗ (∃ f, pt lsl0 c f) ∗ (∃ f, pt lsl1 c f) ∗ (∃ f, pt lsl2 c f) ∗ (∃ f, pt lsl3 c f))

def outBlocks₀ (c : Dev nD) : sProp 𝕄 :=
  iprop(pt osl0 c (m _) ∗ pt osl1 c (m _) ∗ pt osl2 c (m _) ∗ pt osl3 c (m _) ∗ pt osl4 c (m _) ∗ pt osl5 c (m _) ∗ pt osl6 c (m _) ∗ pt osl7 c (m _))

def outBlocks₁ (c : Dev nD) : sProp 𝕄 :=
  iprop(pt osl0 c (outF m c) ∗ pt osl1 c (outF m c) ∗ pt osl2 c (outF m c) ∗ pt osl3 c (outF m c) ∗ pt osl4 c (outF m c) ∗ pt osl5 c (outF m c) ∗ pt osl6 c (outF m c) ∗ pt osl7 c (outF m c))

def Φ₀ (c : Dev nD) : sProp 𝕄 :=
  iprop((∃ K, ghost m K c) ∗ waitCred c ∗ levAts L lv ∗ ownZero c ∗ inBlocks m c ∗ scratchBlocks c ∗ outBlocks₀ m c)

def cellsZero (c : Dev nD) : sProp 𝕄 :=
  iprop(semVal (sendCell0 c) 0 ∗ semVal (sendCell1 c) 0 ∗ semVal (sendCell2 c) 0 ∗ semVal (sendCell3 c) 0
    ∗ semVal (recvCell0 c) 0 ∗ semVal (recvCell1 c) 0 ∗ semVal (recvCell2 c) 0 ∗ semVal (recvCell3 c) 0)

def Φ₁ (c : Dev nD) : sProp 𝕄 :=
  iprop(ownZero c ∗ cellsZero c ∗ inBlocks m c ∗ scratchBlocks c ∗ outBlocks₁ m c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.A2A

end
-- ==== Proof.Cut.lean ====
import Idealize.ShloMosaic.Rules.PointsTo
import Idealize.ShloMosaic.Lib.Tactic

noncomputable section

namespace Cert.Cut

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U] {Lvl : Type}

local notation "𝕄" => MT nD τ sig Ix Val Name U Lvl

variable {ℓ : Loc nD τ sig} {q : PosShare TreeShare}

theorem pt_union_eq {I J : Finset (Idx ℓ)} (h : Disjoint I J) (f : Buf Val ℓ) :
    (ℓ ↦[I ∪ J]{q} f : sProp 𝕄) = iprop((ℓ ↦[I]{q} f) ∗ ℓ ↦[J]{q} f) :=
  have hu : (ℓ ↦[I ∪ J]{q} f : sProp 𝕄) ⊣⊢ iprop((ℓ ↦[I]{q} f) ∗ ℓ ↦[J]{q} f) := pointsTo_union h
  BI.equiv_iff.mp ⟨hu.1, hu.2⟩

/-- The elements whose coordinate `r` lies in `[a, b)`. -/
def rng (r : Idx ℓ → ℕ) (a b : ℕ) : Finset (Idx ℓ) := Finset.univ.filter fun i => a ≤ r i ∧ r i < b

theorem mem_rng {r : Idx ℓ → ℕ} {a b : ℕ} {i : Idx ℓ} : i ∈ rng r a b ↔ a ≤ r i ∧ r i < b := by
  unfold rng; rw [Finset.mem_filter]; exact ⟨fun h => h.2, fun h => ⟨Finset.mem_univ i, h⟩⟩

theorem eq_rng {r : Idx ℓ → ℕ} {a b : ℕ} {I : Finset (Idx ℓ)} (h : ∀ i, i ∈ I ↔ a ≤ r i ∧ r i < b) : I = rng r a b :=
  Finset.ext fun i => (h i).trans mem_rng.symm

theorem rng_univ {r : Idx ℓ → ℕ} {b : ℕ} (h : ∀ i, r i < b) : rng r 0 b = Finset.univ :=
  Finset.ext fun i => by rw [mem_rng]; exact ⟨fun _ => Finset.mem_univ i, fun _ => ⟨Nat.zero_le _, h i⟩⟩

theorem pt_rng_split (r : Idx ℓ → ℕ) {a b c : ℕ} (hab : a ≤ b) (hbc : b ≤ c) (f : Buf Val ℓ) :
    (ℓ ↦[rng r a c]{q} f : sProp 𝕄) = iprop((ℓ ↦[rng r a b]{q} f) ∗ ℓ ↦[rng r b c]{q} f) := by
  have hd : Disjoint (rng r a b) (rng r b c) := Finset.disjoint_left.mpr fun i h1 h2 => by
    rw [mem_rng] at h1 h2; omega
  have hu : rng r a c = rng r a b ∪ rng r b c := Finset.ext fun i => by
    rw [Finset.mem_union, mem_rng, mem_rng, mem_rng]; omega
  rw [hu]; exact pt_union_eq hd f

/-- A buffer sorted by a coordinate into four consecutive ranges is the product of the four. -/
theorem cut4 (r : Idx ℓ → ℕ) {a1 a2 a3 a4 : ℕ} {I0 I1 I2 I3 : Finset (Idx ℓ)}
    (h1 : a1 ≤ a2) (h2 : a2 ≤ a3) (h3 : a3 ≤ a4) (hi : ∀ i, r i < a4)
    (m0 : ∀ i, i ∈ I0 ↔ 0 ≤ r i ∧ r i < a1) (m1 : ∀ i, i ∈ I1 ↔ a1 ≤ r i ∧ r i < a2)
    (m2 : ∀ i, i ∈ I2 ↔ a2 ≤ r i ∧ r i < a3) (m3 : ∀ i, i ∈ I3 ↔ a3 ≤ r i ∧ r i < a4) (f : Buf Val ℓ) :
    (ℓ ↦{q} f : sProp 𝕄) = iprop((ℓ ↦[I0]{q} f) ∗ (ℓ ↦[I1]{q} f) ∗ (ℓ ↦[I2]{q} f) ∗ (ℓ ↦[I3]{q} f)) := by
  rw [← rng_univ hi, eq_rng m0, eq_rng m1, eq_rng m2, eq_rng m3,
    pt_rng_split r (Nat.zero_le a1) (h1.trans (h2.trans h3)), pt_rng_split r h1 (h2.trans h3), pt_rng_split r h2 h3]

theorem cut8 (r : Idx ℓ → ℕ) {a1 a2 a3 a4 a5 a6 a7 a8 : ℕ} {I0 I1 I2 I3 I4 I5 I6 I7 : Finset (Idx ℓ)}
    (h1 : a1 ≤ a2) (h2 : a2 ≤ a3) (h3 : a3 ≤ a4) (h4 : a4 ≤ a5) (h5 : a5 ≤ a6) (h6 : a6 ≤ a7) (h7 : a7 ≤ a8)
    (hi : ∀ i, r i < a8)
    (m0 : ∀ i, i ∈ I0 ↔ 0 ≤ r i ∧ r i < a1) (m1 : ∀ i, i ∈ I1 ↔ a1 ≤ r i ∧ r i < a2)
    (m2 : ∀ i, i ∈ I2 ↔ a2 ≤ r i ∧ r i < a3) (m3 : ∀ i, i ∈ I3 ↔ a3 ≤ r i ∧ r i < a4)
    (m4 : ∀ i, i ∈ I4 ↔ a4 ≤ r i ∧ r i < a5) (m5 : ∀ i, i ∈ I5 ↔ a5 ≤ r i ∧ r i < a6)
    (m6 : ∀ i, i ∈ I6 ↔ a6 ≤ r i ∧ r i < a7) (m7 : ∀ i, i ∈ I7 ↔ a7 ≤ r i ∧ r i < a8) (f : Buf Val ℓ) :
    (ℓ ↦{q} f : sProp 𝕄) = iprop((ℓ ↦[I0]{q} f) ∗ (ℓ ↦[I1]{q} f) ∗ (ℓ ↦[I2]{q} f) ∗ (ℓ ↦[I3]{q} f)
      ∗ (ℓ ↦[I4]{q} f) ∗ (ℓ ↦[I5]{q} f) ∗ (ℓ ↦[I6]{q} f) ∗ (ℓ ↦[I7]{q} f)) := by
  rw [← rng_univ hi, eq_rng m0, eq_rng m1, eq_rng m2, eq_rng m3, eq_rng m4, eq_rng m5, eq_rng m6, eq_rng m7,
    pt_rng_split r (Nat.zero_le a1) (by omega), pt_rng_split r h1 (by omega), pt_rng_split r h2 (by omega),
    pt_rng_split r h3 (by omega), pt_rng_split r h4 (by omega), pt_rng_split r h5 (by omega), pt_rng_split r h6 h7]

theorem join4 (r : Idx ℓ → ℕ) {a1 a2 a3 a4 : ℕ} {I0 I1 I2 I3 : Finset (Idx ℓ)}
    (h1 : a1 ≤ a2) (h2 : a2 ≤ a3) (h3 : a3 ≤ a4) (hi : ∀ i, r i < a4)
    (m0 : ∀ i, i ∈ I0 ↔ 0 ≤ r i ∧ r i < a1) (m1 : ∀ i, i ∈ I1 ↔ a1 ≤ r i ∧ r i < a2)
    (m2 : ∀ i, i ∈ I2 ↔ a2 ≤ r i ∧ r i < a3) (m3 : ∀ i, i ∈ I3 ↔ a3 ≤ r i ∧ r i < a4)
    (g f0 f1 f2 f3 : Buf Val ℓ)
    (e0 : ∀ i ∈ I0, f0 i = g i) (e1 : ∀ i ∈ I1, f1 i = g i) (e2 : ∀ i ∈ I2, f2 i = g i) (e3 : ∀ i ∈ I3, f3 i = g i) :
    (iprop((ℓ ↦[I0]{q} f0) ∗ (ℓ ↦[I1]{q} f1) ∗ (ℓ ↦[I2]{q} f2) ∗ (ℓ ↦[I3]{q} f3)) : sProp 𝕄) ⊢ ℓ ↦{q} g := by
  rw [pointsTo_congr e0, pointsTo_congr e1, pointsTo_congr e2, pointsTo_congr e3, ← cut4 r h1 h2 h3 hi m0 m1 m2 m3 g]

/-- Four ranges at any contents join to the buffer at the contents that agree with each on its range. -/
theorem join4_exists (r : Idx ℓ → ℕ) {a1 a2 a3 a4 : ℕ} {I0 I1 I2 I3 : Finset (Idx ℓ)}
    (h1 : a1 ≤ a2) (h2 : a2 ≤ a3) (h3 : a3 ≤ a4) (hi : ∀ i, r i < a4)
    (m0 : ∀ i, i ∈ I0 ↔ 0 ≤ r i ∧ r i < a1) (m1 : ∀ i, i ∈ I1 ↔ a1 ≤ r i ∧ r i < a2)
    (m2 : ∀ i, i ∈ I2 ↔ a2 ≤ r i ∧ r i < a3) (m3 : ∀ i, i ∈ I3 ↔ a3 ≤ r i ∧ r i < a4) :
    (iprop((∃ f, ℓ ↦[I0]{q} f) ∗ (∃ f, ℓ ↦[I1]{q} f) ∗ (∃ f, ℓ ↦[I2]{q} f) ∗ (∃ f, ℓ ↦[I3]{q} f)) : sProp 𝕄)
      ⊢ iprop(∃ f, ℓ ↦{q} f) := by
  iintro ⟨⟨%f0, H0⟩, ⟨%f1, H1⟩, ⟨%f2, H2⟩, ⟨%f3, H3⟩⟩
  iexists (fun i => if r i < a1 then f0 i else if r i < a2 then f1 i else if r i < a3 then f2 i else f3 i)
  iapply (join4 r h1 h2 h3 hi m0 m1 m2 m3 _ f0 f1 f2 f3
    (fun i h => by have := (m0 i).mp h; rw [if_pos this.2])
    (fun i h => by have := (m1 i).mp h; rw [if_neg (by omega), if_pos this.2])
    (fun i h => by have := (m2 i).mp h; rw [if_neg (by omega), if_neg (by omega), if_pos this.2])
    (fun i h => by have := (m3 i).mp h; rw [if_neg (by omega), if_neg (by omega), if_neg (by omega)]))
  isplitl [H0]; · iexact H0
  isplitl [H1]; · iexact H1
  isplitl [H2]; · iexact H2
  iexact H3

/-- An index lies in a block of rows of a matrix when its row does. -/
theorem mem_rows {R C o h : ℕ}
    {inb : ∀ a, (![o, 0] : Fin 2 → ℕ) a + (![h, C] : Fin 2 → ℕ) a ≤ (⟨2, ![R, C]⟩ : Shape).size a}
    {I : Finset (⟨2, ![R, C]⟩ : Shape).Idx} (hI : I = (Rect.unit (s := ⟨2, ![R, C]⟩) ![o, 0] ![h, C] inb).set)
    (i : (⟨2, ![R, C]⟩ : Shape).Idx) : i ∈ I ↔ o ≤ (i 0).val ∧ (i 0).val < o + h := by
  subst hI
  rw [Rect.mem_set_unit, Fin.forall_fin_two]
  have h1 : (i 1).val < C := (i 1).isLt
  exact ⟨fun hh => hh.1, fun hh => ⟨hh, Nat.zero_le _, by show (i 1).val < 0 + C; omega⟩⟩

end Cert.Cut

end
-- ==== Proof.Pieces.lean ====
import proofs.«900490_g7700000000000491_dist_a2a_v7x_xyz2x2x2_y_m1024_n512_bf16_1_alg».proof.Proof.Schedule
import proofs.«900490_g7700000000000491_dist_a2a_v7x_xyz2x2x2_y_m1024_n512_bf16_1_alg».proof.Proof.Cut
import Idealize.ShloMosaic.Lib.Pipeline.Value

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx
open Cert.Cut

variable {F : FTy → Type} [FloatOps F]

local notation "𝕄" => MT nD τ sig Unit (Elt F) ℕ UU ℕ

section Blocks
variable (c : Dev nD)

theorem out_cut (f : Buf (Elt F) ((c : Thread nD τ).loc main_v1)) :
    (((c : Thread nD τ).loc main_v1) ↦{fullShare} f : sProp 𝕄)
      = iprop(pt osl0 c f ∗ pt osl1 c f ∗ pt osl2 c f ∗ pt osl3 c f ∗ pt osl4 c f ∗ pt osl5 c f ∗ pt osl6 c f ∗ pt osl7 c f) :=
  cut8 (ℓ := (c : Thread nD τ).loc main_v1) (fun i : S2048x512.Idx => (i 0).val) (a1 := 256) (a2 := 512) (a3 := 768) (a4 := 1024) (a5 := 1280) (a6 := 1536) (a7 := 1792) (a8 := 2048) (by decide) (by decide) (by decide) (by decide) (by decide) (by decide) (by decide) (fun i => (i 0).isLt)
    (mem_rows (I := osl0.view.set) (View.set_slice_whole _ _)) (mem_rows (I := osl1.view.set) (View.set_slice_whole _ _)) (mem_rows (I := osl2.view.set) (View.set_slice_whole _ _)) (mem_rows (I := osl3.view.set) (View.set_slice_whole _ _)) (mem_rows (I := osl4.view.set) (View.set_slice_whole _ _)) (mem_rows (I := osl5.view.set) (View.set_slice_whole _ _)) (mem_rows (I := osl6.view.set) (View.set_slice_whole _ _)) (mem_rows (I := osl7.view.set) (View.set_slice_whole _ _)) f

theorem in_cut (f : Buf (Elt F) ((c : Thread nD τ).loc main_arg0)) :
    (((c : Thread nD τ).loc main_arg0) ↦{fullShare} f : sProp 𝕄)
      = iprop(pt xsl0 c f ∗ pt xsl1 c f ∗ pt xsl2 c f ∗ pt xsl3 c f) :=
  cut4 (ℓ := (c : Thread nD τ).loc main_arg0) (fun i : S1024x1024.Idx => (i 0).val) (a1 := 256) (a2 := 512) (a3 := 768) (a4 := 1024) (by decide) (by decide) (by decide) (fun i => (i 0).isLt)
    (mem_rows (I := xsl0.view.set) (View.set_slice_whole _ _)) (mem_rows (I := xsl1.view.set) (View.set_slice_whole _ _)) (mem_rows (I := xsl2.view.set) (View.set_slice_whole _ _)) (mem_rows (I := xsl3.view.set) (View.set_slice_whole _ _)) f

theorem scr0_cut (f : Buf (Elt F) ((c : Thread nD τ).loc cc0_scratch0)) :
    (((c : Thread nD τ).loc cc0_scratch0) ↦{fullShare} f : sProp 𝕄)
      = iprop(pt vsl0 c f ∗ pt vsl1 c f ∗ pt vsl2 c f ∗ pt vsl3 c f) :=
  cut4 (ℓ := (c : Thread nD τ).loc cc0_scratch0) (fun i : S1024x1024.Idx => (i 0).val) (a1 := 256) (a2 := 512) (a3 := 768) (a4 := 1024) (by decide) (by decide) (by decide) (fun i => (i 0).isLt)
    (mem_rows (I := vsl0.view.set) (View.set_slice_whole _ _)) (mem_rows (I := vsl1.view.set) (View.set_slice_whole _ _)) (mem_rows (I := vsl2.view.set) (View.set_slice_whole _ _)) (mem_rows (I := vsl3.view.set) (View.set_slice_whole _ _)) f

theorem scr1_cut (f : Buf (Elt F) ((c : Thread nD τ).loc cc0_scratch1)) :
    (((c : Thread nD τ).loc cc0_scratch1) ↦{fullShare} f : sProp 𝕄)
      = iprop(pt ssl0 c f ∗ pt ssl1 c f ∗ pt ssl2 c f ∗ pt ssl3 c f) :=
  cut4 (ℓ := (c : Thread nD τ).loc cc0_scratch1) (fun i : S1024x512.Idx => (i 0).val) (a1 := 256) (a2 := 512) (a3 := 768) (a4 := 1024) (by decide) (by decide) (by decide) (fun i => (i 0).isLt)
    (mem_rows (I := ssl0.view.set) (View.set_slice_whole _ _)) (mem_rows (I := ssl1.view.set) (View.set_slice_whole _ _)) (mem_rows (I := ssl2.view.set) (View.set_slice_whole _ _)) (mem_rows (I := ssl3.view.set) (View.set_slice_whole _ _)) f

theorem scr2_cut (f : Buf (Elt F) ((c : Thread nD τ).loc cc0_scratch2)) :
    (((c : Thread nD τ).loc cc0_scratch2) ↦{fullShare} f : sProp 𝕄)
      = iprop(pt lsl0 c f ∗ pt lsl1 c f ∗ pt lsl2 c f ∗ pt lsl3 c f) :=
  cut4 (ℓ := (c : Thread nD τ).loc cc0_scratch2) (fun i : S1024x512.Idx => (i 0).val) (a1 := 256) (a2 := 512) (a3 := 768) (a4 := 1024) (by decide) (by decide) (by decide) (fun i => (i 0).isLt)
    (mem_rows (I := lsl0.view.set) (View.set_slice_whole _ _)) (mem_rows (I := lsl1.view.set) (View.set_slice_whole _ _)) (mem_rows (I := lsl2.view.set) (View.set_slice_whole _ _)) (mem_rows (I := lsl3.view.set) (View.set_slice_whole _ _)) f

theorem scr0_join :
    (iprop((∃ f, pt vsl0 c f) ∗ (∃ f, pt vsl1 c f) ∗ (∃ f, pt vsl2 c f) ∗ (∃ f, pt vsl3 c f)) : sProp 𝕄)
      ⊢ iprop(∃ f, (((c : Thread nD τ).loc cc0_scratch0) ↦{fullShare} f)) :=
  join4_exists (ℓ := (c : Thread nD τ).loc cc0_scratch0) (fun i : S1024x1024.Idx => (i 0).val) (a1 := 256) (a2 := 512) (a3 := 768) (a4 := 1024) (by decide) (by decide) (by decide) (fun i => (i 0).isLt)
    (mem_rows (I := vsl0.view.set) (View.set_slice_whole _ _)) (mem_rows (I := vsl1.view.set) (View.set_slice_whole _ _)) (mem_rows (I := vsl2.view.set) (View.set_slice_whole _ _)) (mem_rows (I := vsl3.view.set) (View.set_slice_whole _ _))

theorem scr1_join :
    (iprop((∃ f, pt ssl0 c f) ∗ (∃ f, pt ssl1 c f) ∗ (∃ f, pt ssl2 c f) ∗ (∃ f, pt ssl3 c f)) : sProp 𝕄)
      ⊢ iprop(∃ f, (((c : Thread nD τ).loc cc0_scratch1) ↦{fullShare} f)) :=
  join4_exists (ℓ := (c : Thread nD τ).loc cc0_scratch1) (fun i : S1024x512.Idx => (i 0).val) (a1 := 256) (a2 := 512) (a3 := 768) (a4 := 1024) (by decide) (by decide) (by decide) (fun i => (i 0).isLt)
    (mem_rows (I := ssl0.view.set) (View.set_slice_whole _ _)) (mem_rows (I := ssl1.view.set) (View.set_slice_whole _ _)) (mem_rows (I := ssl2.view.set) (View.set_slice_whole _ _)) (mem_rows (I := ssl3.view.set) (View.set_slice_whole _ _))

theorem scr2_join :
    (iprop((∃ f, pt lsl0 c f) ∗ (∃ f, pt lsl1 c f) ∗ (∃ f, pt lsl2 c f) ∗ (∃ f, pt lsl3 c f)) : sProp 𝕄)
      ⊢ iprop(∃ f, (((c : Thread nD τ).loc cc0_scratch2) ↦{fullShare} f)) :=
  join4_exists (ℓ := (c : Thread nD τ).loc cc0_scratch2) (fun i : S1024x512.Idx => (i 0).val) (a1 := 256) (a2 := 512) (a3 := 768) (a4 := 1024) (by decide) (by decide) (by decide) (fun i => (i 0).isLt)
    (mem_rows (I := lsl0.view.set) (View.set_slice_whole _ _)) (mem_rows (I := lsl1.view.set) (View.set_slice_whole _ _)) (mem_rows (I := lsl2.view.set) (View.set_slice_whole _ _)) (mem_rows (I := lsl3.view.set) (View.set_slice_whole _ _))

/-- A row block at contents that agree on it with `g` is the row block at `g`. -/
theorem pt_to {sp : Space} {s : Shape} {e : EltTy} (M : Memref sig .tc sp s e) {f : Buf (Elt F) (M.view.loc (c : Thread nD τ))}
    (g : Buf (Elt F) (M.view.loc (c : Thread nD τ))) (h : ∀ j ∈ M.view.set, f j = g j) : (pt M c f : sProp 𝕄) ⊢ pt M c g :=
  Entails.of_eq (pointsTo_congr h)

end Blocks

section Landed
variable (m : (ℓ : Loc nD τ sig) → Buf (Elt F) ℓ) (c : Dev nD)

theorem outF_send (j : S2048x512.Idx) (h : (j 0).val / 1024 ≠ yOf c) :
    outF m c j = sendHalf m (peer c) (ix2 (⟨(j 0).val % 1024, Nat.mod_lt _ (by decide)⟩ : Fin 1024) (j 1)) := by
  unfold outF; exact if_neg h

theorem outF_keep (j : S2048x512.Idx) (h : (j 0).val / 1024 = yOf c) :
    outF m c j = keepHalf m c (ix2 (⟨(j 0).val % 1024, Nat.mod_lt _ (by decide)⟩ : Fin 1024) (j 1)) := by
  unfold outF; exact if_pos h

/-- Rows `oi …` of the send scratch copied onto rows `ok …` of the result array: row `r` there holds the source's row `r - ok + oi`. -/
theorem landed_s {ok oi : ℕ} {inbk : ∀ a, (![ok, 0] : Fin 2 → ℕ) a + S256x512.size a ≤ S2048x512.size a}
    {inbi : ∀ a, (![oi, 0] : Fin 2 → ℕ) a + S256x512.size a ≤ S1024x512.size a}
    (V : A1.view.ty.Contents (Elt F)) (S : S1024x512.Idx → Elt F .bf16) (j : S2048x512.Idx) (r : Fin 1024)
    (hj : j ∈ (A1.view.slice (Rect.unit (s := S2048x512) ![ok, 0] S256x512.size inbk)).set)
    (hr : r.val + ok = (j 0).val + oi) :
    ((A1.view.slice (Rect.unit (s := S2048x512) ![ok, 0] S256x512.size inbk)).write (Elt F) V
      ((A3.view.slice (Rect.unit (s := S1024x512) ![oi, 0] S256x512.size inbi)).read (Elt F) S) Finset.univ) j
      = S (ix2 r (j 1)) := by
  obtain ⟨y, rfl⟩ := View.exists_emb_of_mem_set _ hj
  rw [View.write_emb_of_mem _ _ (Finset.mem_univ y), View.read_apply]
  have h0 : r.val + ok = (ok + 1 * (y 0).val) + oi := hr
  have e : (A3.view.slice (Rect.unit (s := S1024x512) ![oi, 0] S256x512.size inbi)).emb y
      = ix2 r ((A1.view.slice (Rect.unit (s := S2048x512) ![ok, 0] S256x512.size inbk)).emb y 1) := by
    funext a
    match a with
    | ⟨0, _⟩ => exact Fin.ext (by show oi + 1 * (y 0).val = r.val; omega)
    | ⟨1, _⟩ => exact Fin.ext rfl
  rw [e]; rfl

/-- The partner's rows `oi …` land in the other half of the device's result array, at row `1024 · (1 - y) + oi`: there they are the final contents. -/
theorem landed_outF {ok oi : ℕ} {inbk : ∀ a, (![ok, 0] : Fin 2 → ℕ) a + S256x512.size a ≤ S2048x512.size a}
    {inbi : ∀ a, (![oi, 0] : Fin 2 → ℕ) a + S256x512.size a ≤ S1024x512.size a}
    (hok : ok = 1024 * (1 - yOf c) + oi) (V : A1.view.ty.Contents (Elt F)) :
    ∀ j ∈ (A1.view.slice (Rect.unit (s := S2048x512) ![ok, 0] S256x512.size inbk)).set,
      ((A1.view.slice (Rect.unit (s := S2048x512) ![ok, 0] S256x512.size inbk)).write (Elt F) V
        ((A3.view.slice (Rect.unit (s := S1024x512) ![oi, 0] S256x512.size inbi)).read (Elt F) (sendHalf m (peer c))) Finset.univ) j
        = outF m c j := by
  intro j hj
  have hm := (mem_rows (View.set_slice_whole _ _) j).mp hj
  have hi : oi + 256 ≤ 1024 := inbi 0
  have hy := yOf_lt c
  rw [outF_send m c j (by omega)]
  exact landed_s _ _ j _ hj (by show (j 0).val % 1024 + ok = (j 0).val + oi; omega)

end Landed

end Cert.KernelIdeal.A2A

end
-- ==== Proof.Launch.lean ====
import proofs.«900490_g7700000000000491_dist_a2a_v7x_xyz2x2x2_y_m1024_n512_bf16_1_alg».proof.Proof.Holdings
import proofs.«900490_g7700000000000491_dist_a2a_v7x_xyz2x2x2_y_m1024_n512_bf16_1_alg».proof.Proof.Pieces

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

abbrev osem : Fin 16 → SemLoc sig := fun k => .dma ⟨k.val, k.isLt⟩

theorem ownSemFacts : Pipeline.OwnSemFacts cfg0.spec osem := by decide

theorem share_eq (c : Dev nD) (w : Fin cfg0.W) : (dats m 0 c).share w = fullShare := w.elim0

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

def xCells : Finset (GSem nD τ sig) := Finset.univ.map ⟨kcell, kcell_injective⟩

abbrev tokOf (ck : Dev nD × Fin 9) : GSem nD τ sig × ℕ × Unit := (kcell ck, 0, ())
theorem tokOf_injective : Function.Injective (tokOf : Dev nD × Fin 9 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), (initOf xCells xToks, 1))

def toks (c : Dev nD) : sProp 𝕄 := bigSep Finset.univ fun k : Fin 9 => dutyTok ER (kcell (c, k)) 0 ()

def G (c : Dev nD) : sProp 𝕄 :=
  iprop((bigSep Finset.univ fun k : Fin 9 => roundState ER (rd m) (kcell (c, k)) 0)
    ∗ (bigSep Finset.univ fun k : Fin 9 => iprop(atPos ER (kcell (c, k)) 0 ∅ 0 ∗ reached ER (kcell (c, k)) 0)) ∗ toks c)

def G' (c : Dev nD) : sProp 𝕄 := iprop((∃ K, ghost m K c) ∗ ownZero c)

omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_cells : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 9 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]; rfl
  iintro HX
  imod (Rounds.fund ER (rd m) xCells xToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

omit [FloatOps F] in

theorem ownSems0_eq (c : Dev nD) : (Pipeline.ownSems0 (Ix := Unit) (Name := ℕ) (U := UU) (Lvl := ℕ) (Val := Elt F) (τ := τ) osem c : sProp 𝕄)
    = iprop(semVal ((c : Thread nD τ), .dma (dsem 0)) 0 ∗ semVal ((c : Thread nD τ), .dma (dsem 1)) 0 ∗ semVal ((c : Thread nD τ), .dma (dsem 2)) 0 ∗ semVal ((c : Thread nD τ), .dma (dsem 3)) 0
      ∗ semVal (sendCell0 c) 0 ∗ semVal (sendCell1 c) 0 ∗ semVal (sendCell2 c) 0 ∗ semVal (sendCell3 c) 0
      ∗ semVal (recvCell0 c) 0 ∗ semVal (recvCell1 c) 0 ∗ semVal (recvCell2 c) 0 ∗ semVal (recvCell3 c) 0
      ∗ semVal ((c : Thread nD τ), .dma (dsem 12)) 0 ∗ semVal ((c : Thread nD τ), .dma (dsem 13)) 0 ∗ semVal ((c : Thread nD τ), .dma (dsem 14)) 0 ∗ semVal ((c : Thread nD τ), .dma (dsem 15)) 0) := by
  rw [Pipeline.ownSems0_eq_of_list c osem [0, 1, 2, 3, 4, 5, 6, 7, 8, 9, 10, 11, 12, 13, 14, 15] (by decide) (by decide)]; rfl
omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 9 => semVal (kcell (c, k)) 0) ∗ ownZero c : sProp 𝕄) := by
  rw [ownSems0_eq, unscopedSems0_eq, bigSep_fin9]
  unfold ownZero
  iintro ⟨⟨H0, H1, H2, H3, S0, S1, S2, S3, R0, R1, R2, R3, H12, H13, H14, H15⟩, HB⟩
  iframe

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ ownZero c) := by
  unfold G
  iintro ⟨Hos, Hus, Hst, Hat, Htok⟩
  ihave Hv := (sems0_eq (F := F) c) $$ [Hos Hus]
  · iframe
  icases Hv with ⟨Hv, Hz⟩
  imod (show iprop((bigSep Finset.univ fun k : Fin 9 => semVal (kcell (c, k)) 0) ∗ bigSep Finset.univ fun k : Fin 9 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · iframe
  imodintro
  iframe

def records (K : Dev nD × Fin 9 → ℕ) : sProp 𝕄 :=
  iprop((bigSep Finset.univ fun ck : Dev nD × Fin 9 => cellInv ER (rd m) (K ck) (kcell ck))
    ∗ bigSep Finset.univ fun ck : Dev nD × Fin 9 => reached ER (kcell ck) 0)

instance records_persistent (K : Dev nD × Fin 9 → ℕ) : BI.Persistent (records m K) := by unfold records; infer_instance

theorem inv_at (K : Dev nD × Fin 9 → ℕ) (ck : Dev nD × Fin 9) :
    (bigSep Finset.univ fun ck : Dev nD × Fin 9 => (cellInv ER (rd m) (K ck) (kcell ck) : sProp 𝕄)) ⊢ cellInv ER (rd m) (K ck) (kcell ck) :=
  bigSep_elim (Finset.mem_univ ck)
omit [FloatOps F] in
theorem reached_at (ck : Dev nD × Fin 9) :
    (bigSep Finset.univ fun ck : Dev nD × Fin 9 => (reached ER (kcell ck) 0 : sProp 𝕄)) ⊢ reached ER (kcell ck) 0 :=
  bigSep_elim (Finset.mem_univ ck)

def linear (c : Dev nD) : sProp 𝕄 :=
  iprop((bigSep Finset.univ fun k : Fin 9 => atPos ER (kcell (c, k)) 0 ∅ 0) ∗ payToks c ∗ ownZero c)

theorem ghost_intro (K : Dev nD × Fin 9 → ℕ) (c : Dev nD) : iprop(records m K ∗ linear c) ⊢ G' m c := by
  unfold records linear G' ghost invs positions reachedMarks
  rw [bigSep_fin9]
  iintro ⟨⟨#HI, #HR⟩, ⟨Ha0, Ha1, Ha2, Ha3, Ha4, Ha5, Ha6, Ha7, Ha8⟩, Htok, Hz⟩
  isplitr [Hz]
  · iexists K
    isplitr
    · isplitr; · iapply (inv_at m K (c, 0)); iexact HI
      isplitr; · iapply (inv_at m K (c, 1)); iexact HI
      isplitr; · iapply (inv_at m K (c, 2)); iexact HI
      isplitr; · iapply (inv_at m K (c, 3)); iexact HI
      isplitr; · iapply (inv_at m K (c, 4)); iexact HI
      isplitr; · iapply (inv_at m K (c, 5)); iexact HI
      isplitr; · iapply (inv_at m K (c, 6)); iexact HI
      isplitr; · iapply (inv_at m K (c, 7)); iexact HI
      isplitr; · iapply (inv_at m K (c, 8)); iexact HI
      isplitr; · iapply (inv_at m K (peer c, 0)); iexact HI
      isplitr; · iapply (inv_at m K (peer c, 5)); iexact HI
      isplitr; · iapply (inv_at m K (peer c, 6)); iexact HI
      isplitr; · iapply (inv_at m K (peer c, 7)); iexact HI
      iapply (inv_at m K (peer c, 8)); iexact HI
    isplitr [Htok]
    · iframe
    isplitr
    · isplitr; · iapply (reached_at (F := F) (peer c, 0)); iexact HR
      isplitr; · iapply (reached_at (F := F) (peer c, 5)); iexact HR
      isplitr; · iapply (reached_at (F := F) (peer c, 6)); iexact HR
      isplitr; · iapply (reached_at (F := F) (peer c, 7)); iexact HR
      isplitr; · iapply (reached_at (F := F) (peer c, 8)); iexact HR
      isplitr; · iapply (reached_at (F := F) (c, 1)); iexact HR
      isplitr; · iapply (reached_at (F := F) (c, 2)); iexact HR
      isplitr; · iapply (reached_at (F := F) (c, 3)); iexact HR
      iapply (reached_at (F := F) (c, 4)); iexact HR
    iexact Htok
  · iexact Hz

omit [FloatOps F] in

theorem toks_eq (c : Dev nD) : (toks c : sProp 𝕄)
    = iprop(dutyTok ER (barCell c) 0 () ∗ dutyTok ER (sendCell0 c) 0 () ∗ dutyTok ER (sendCell1 c) 0 () ∗ dutyTok ER (sendCell2 c) 0 () ∗ dutyTok ER (sendCell3 c) 0 ()
      ∗ dutyTok ER (recvCell0 c) 0 () ∗ dutyTok ER (recvCell1 c) 0 () ∗ dutyTok ER (recvCell2 c) 0 () ∗ dutyTok ER (recvCell3 c) 0 ()) := by
  unfold toks; rw [bigSep_fin9]

omit [FloatOps F] in

theorem toks_around : (bigSep Finset.univ fun c : Dev nD => (toks c : sProp 𝕄)) ⊢ bigSep Finset.univ fun c : Dev nD => payToks c := by
  rw [bigSep_congr (s := Finset.univ) fun (c : Dev nD) _ => toks_eq (F := F) c]
  unfold payToks
  simp only [bigSep_sep']
  rw [bigSep_univ_equiv peerEquiv (fun c : Dev nD => (dutyTok ER (barCell c) 0 () : sProp 𝕄)),
    bigSep_univ_equiv peerEquiv (fun c : Dev nD => (dutyTok ER (recvCell0 c) 0 () : sProp 𝕄)),
    bigSep_univ_equiv peerEquiv (fun c : Dev nD => (dutyTok ER (recvCell1 c) 0 () : sProp 𝕄)),
    bigSep_univ_equiv peerEquiv (fun c : Dev nD => (dutyTok ER (recvCell2 c) 0 () : sProp 𝕄)),
    bigSep_univ_equiv peerEquiv (fun c : Dev nD => (dutyTok ER (recvCell3 c) 0 () : sProp 𝕄))]
  iintro ⟨HB, S0, S1, S2, S3, R0, R1, R2, R3⟩
  iframe
  isplitl [HB]; · iexact HB
  isplitl [R0]; · iexact R0
  isplitl [R1]; · iexact R1
  isplitl [R2]; · iexact R2
  iexact R3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ ownZero c) : sProp 𝕄)
      ⊢ bigSep Finset.univ (G' m) := by
  rw [bigSep_sep', bigSep_sep', bigSep_sep', ← bigSep_univ_prod (fun ck : Dev nD × Fin 9 => iprop(∃ κ : ℕ, cellInv ER (rd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok, Hz⟩
  ihave HK := (BI.bigSep_exists_pi Finset.univ (fun (ck : Dev nD × Fin 9) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (show iprop((bigSep Finset.univ fun c : Dev nD => bigSep Finset.univ fun k : Fin 9 => (atPos ER (kcell (c, k)) 0 ∅ 0 : sProp 𝕄))
        ∗ (bigSep Finset.univ fun c : Dev nD => (payToks c : sProp 𝕄)) ∗ (bigSep Finset.univ fun c : Dev nD => (ownZero c : sProp 𝕄)))
        ⊢ bigSep Finset.univ fun c : Dev nD => (linear c : sProp 𝕄) from by
      unfold linear; rw [bigSep_sep', bigSep_sep'])
    iframe

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in

theorem creds (c : Dev nD) : (Pipeline.launchCred O₀ c : sProp 𝕄) ⊢ waitCred c := by
  have e : (O₀ : Dev nD → CellTallies nD τ sig Unit) = fun d =>
      0 + tallyAt (((peer d).tc : Thread nD τ), SemLoc.dma (dsem 11)) () N + tallyAt (((peer d).tc : Thread nD τ), SemLoc.dma (dsem 10)) () N
        + tallyAt (((peer d).tc : Thread nD τ), SemLoc.dma (dsem 9)) () N + tallyAt (((peer d).tc : Thread nD τ), SemLoc.dma (dsem 8)) () N
        + tallyAt (((peer d).tc : Thread nD τ), SemLoc.reg barS) () 1 := rfl
  rw [e, Pipeline.launchCred_add, Pipeline.launchCred_add, Pipeline.launchCred_add, Pipeline.launchCred_add, Pipeline.launchCred_add]
  unfold waitCred
  have h (s : SemLoc sig) (n : ℕ) : (Pipeline.launchCred (fun d => tallyAt (((peer d).tc : Thread nD τ), s) () n) c : sProp 𝕄)
      ⊢ cred (tallyAt ((c : Thread nD τ), s) () n) := Pipeline.launchCred_tallyAt _ peer peer peer_peer peer_peer () n c
  iintro ⟨⟨⟨⟨⟨-, H3⟩, H2⟩, H1⟩, H0⟩, HB⟩
  isplitl [HB]; · iapply (h _ _); iexact HB
  isplitl [H0]; · iapply (h _ _); iexact H0
  isplitl [H1]; · iapply (h _ _); iexact H1
  isplitl [H2]; · iapply (h _ _); iexact H2
  iapply (h _ _); iexact H3

def X (c : Dev nD) : sProp 𝕄 :=
  iprop((∃ K, ghost m K c) ∗ ownZero c ∗ waitCred c ∗ levAts L lv
    ∗ (((c : Thread nD τ).loc main_arg0) ↦{fullShare} m ((c : Thread nD τ).loc main_arg0))
    ∗ (((c : Thread nD τ).loc main_v1) ↦{fullShare} m ((c : Thread nD τ).loc main_v1)))

def Y (c : Dev nD) : sProp 𝕄 :=
  iprop((((c : Thread nD τ).loc main_arg0) ↦{fullShare} m ((c : Thread nD τ).loc main_arg0))
    ∗ (((c : Thread nD τ).loc main_v1) ↦{fullShare} (outF m c : Buf (Elt F) ((c : Thread nD τ).loc main_v1))))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Ha, Hv⟩, Hlev, Hcr, -, HG⟩
  ihave Hc := (creds (F := F) c) $$ Hcr
  unfold G'
  icases HG with ⟨HG, Hz⟩
  imodintro
  unfold X
  iframe

theorem waits (c : Dev nD) : (levAts L lv : sProp 𝕄) ⊢ Pipeline.cellsWaits cfgs (dats m) () 0 c :=
  Pipeline.cellsWaits_intro cfgs (dats m) () 0 c fun w s t => w.elim0

set_option maxRecDepth 8000 in

theorem run_main_of [∀ e, Nonempty (Elt F e)]
    (hbody : ∀ c : Dev nD, BodyObligation (dats (F := F) m 0 c) (defs₀ (F := F)) 𝒱₀ () Set.univ)
    (hin : ∀ c : Dev nD, iprop(X m c ∗ Pipeline.prefHeld Pipeline.Prefetch.none c (fun _ => fullShare.right) (fun k => k.elim0) ∗ Pipeline.scopedRest cfg0.spec c)
      ⊢ (dats (F := F) m 0 c).Φ 0)
    (hout : ∀ c : Dev nD, (dats (F := F) m 0 c).Φ (Fin.last cfg0.N) ⊢ iprop(Y m c ∗ Pipeline.ownSems0 osem c ∗ Pipeline.scopedRest cfg0.spec c)) :
    θ_run defs (onTc (τ := τ) (main (F := F))) ⟨m, fun _ => 0, ρ⟩ (fun r => ∀ c : Dev nD,
      r.2.mem ((c.tc : Thread nD τ).loc main_v1) = outF m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HX, -⟩
      imod (fund_cells m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := hin) (hout := hout)
    (QY := fun c s => s.mem ((c.tc : Thread nD τ).loc main_v1) = outF m c
      ∧ s.mem ((c.tc : Thread nD τ).loc main_arg0) = m ((c.tc : Thread nD τ).loc main_arg0))
    (hY := fun c s' => by
      unfold Y
      iintro ⟨⟨Ha, Hv⟩, -, HSI⟩
      icombine HSI Ha gives %ha
      icombine HSI Hv gives %hv
      imodintro
      isplitr; · ipureintro; exact ⟨Buf.eq_of_forall_mem_univ hv, Buf.eq_of_forall_mem_univ ha⟩
      iexact HSI)
    (hQ := fun _ h c => (h c).2.2)

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold X Φ₀ inBlocks scratchBlocks outBlocks₀
  iintro ⟨⟨Hg, Hz, Hc, Hlev, Ha, Hv⟩, -, ⟨%f0, H0⟩, ⟨%f1, H1⟩, ⟨%f2, H2⟩⟩
  ihave Ha' := (Entails.of_eq (in_cut (F := F) c _)) $$ Ha
  icases Ha' with ⟨A0, A1, A2, A3⟩
  ihave Hv' := (Entails.of_eq (out_cut (F := F) c _)) $$ Hv
  icases Hv' with ⟨O0, O1, O2, O3, O4, O5, O6, O7⟩
  ihave H0' := (Entails.of_eq (scr0_cut (F := F) c f0)) $$ H0
  icases H0' with ⟨V0, V1, V2, V3⟩
  ihave H1' := (Entails.of_eq (scr1_cut (F := F) c f1)) $$ H1
  icases H1' with ⟨S0, S1, S2, S3⟩
  ihave H2' := (Entails.of_eq (scr2_cut (F := F) c f2)) $$ H2
  icases H2' with ⟨L0, L1, L2, L3⟩
  iframe
  isplitl [V0]; · iexists f0; iexact V0
  isplitl [V1]; · iexists f0; iexact V1
  isplitl [V2]; · iexists f0; iexact V2
  isplitl [V3]; · iexists f0; iexact V3
  isplitl [S0]; · iexists f1; iexact S0
  isplitl [S1]; · iexists f1; iexact S1
  isplitl [S2]; · iexists f1; iexact S2
  isplitl [S3]; · iexists f1; iexact S3
  isplitl [L0]; · iexists f2; iexact L0
  isplitl [L1]; · iexists f2; iexact L1
  isplitl [L2]; · iexists f2; iexact L2
  iexists f2; iexact L3

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y ownZero cellsZero inBlocks scratchBlocks outBlocks₁
  iintro ⟨⟨Z0, Z1, Z2, Z3, Z12, Z13, Z14, Z15⟩, ⟨S0, S1, S2, S3, R0, R1, R2, R3⟩, HA, ⟨V0, V1, V2, V3, T0, T1, T2, T3, L0, L1, L2, L3⟩, HO⟩
  ihave HA := (Entails.of_eq (in_cut (F := F) c (m ((c : Thread nD τ).loc main_arg0))).symm) $$ HA
  ihave HO := (Entails.of_eq (out_cut (F := F) c (outF m c)).symm) $$ HO
  ihave HV := (scr0_join (F := F) c) $$ [V0 V1 V2 V3]
  · iframe
  ihave HT := (scr1_join (F := F) c) $$ [T0 T1 T2 T3]
  · iframe
  ihave HL := (scr2_join (F := F) c) $$ [L0 L1 L2 L3]
  · iframe
  iframe

theorem run_main [∀ e, Nonempty (Elt F e)]
    (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outF m c
      ∧ r.2.mem ((c.tc : Thread nD τ).loc main_arg0) = m ((c.tc : Thread nD τ).loc main_arg0)) :=
  run_main_of m ρ hbody (phi0_intro m) (phi1_exit m)

end Cert.KernelIdeal.A2A

end
-- ==== Proof.Sends.lean ====
import proofs.«900490_g7700000000000491_dist_a2a_v7x_xyz2x2x2_y_m1024_n512_bf16_1_alg».proof.Proof.Holdings

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ)

/-- The same assertion under another name, set aside until it is used. -/
def aside (P : sProp 𝕄) : sProp 𝕄 := P

omit [FloatOps F] in
theorem aside_intro (P : sProp 𝕄) : P ⊢ aside P := BI.Entails.refl _
omit [FloatOps F] in
theorem aside_elim (P : sProp 𝕄) : aside P ⊢ P := BI.Entails.refl _

/-- The copy of rows `oi …` of the send scratch to row `ok` of the partner's result array: the source rows lent to the departure cell, the written block handed to the partner's arrival cell, the arrival's credit paid. -/
theorem wp_send (c n : Dev nD) (hn : n = peer c) {ok oi : ℕ} {ks kr : DmaSem sig} (κ₁ κ₂ : ℕ)
    {inbk : ∀ a, (![ok, 0] : Fin 2 → ℕ) a + S256x512.size a ≤ S2048x512.size a}
    {inbi : ∀ a, (![oi, 0] : Fin 2 → ℕ) a + S256x512.size a ≤ S1024x512.size a}
    (hks : SemLoc.dma ks ∈ cellSems) (hkr : SemLoc.dma kr ∈ cellSems)
    (es : ∀ d, (rd m).payload ((c : Thread nD τ), .dma ks) 0 d = iprop(∃ f, pt (sAt oi inbi) c f))
    (er : ∀ d : Dev nD, yOf d = 1 - yOf c → (rd m).payload ((d : Thread nD τ), .dma kr) 0 () = landed m ok oi d inbk inbi)
    {hsc : (oAt ok inbk : Memref sig (Dev.tc n : Thread nD τ).2.kind .hbm S256x512 .bf16).view.ref.isScScratch = false}
    {hsrc : (sAt oi inbi).view.WordExact} {hdst : (oAt ok inbk).view.WordExact}
    {hsem : DmaTarget.Typed .vmem (.dma kr) (.remote (Dev.tc n : Thread nD τ) (oAt ok inbk) (.dma ks) hsc)}
    {α : Type} {Q : α → sProp 𝕄} {k : PUnit → Prog (TpuEff nD τ sig (Elt F) Λ₀ .tc) α}
    (O : CellTallies nD τ sig Unit) (W : Waits sig Unit) :
    iprop(cellInv ER (rd m) κ₁ ((c : Thread nD τ), .dma ks) ∗ cellInv ER (rd m) κ₂ ((peer c : Thread nD τ), .dma kr)
        ∗ pt (sAt oi inbi) c (sendHalf m c) ∗ pt (oAt ok inbk) (peer c) (m _)
        ∗ owes (c : Thread nD τ) (O + tallyAt ((peer c : Thread nD τ), .dma kr) () N) W
        ∗ dutyTok ER ((c : Thread nD τ), .dma ks) 0 () ∗ reached ER ((c : Thread nD τ), .dma ks) 0
        ∗ dutyTok ER ((peer c : Thread nD τ), .dma kr) 0 () ∗ reached ER ((peer c : Thread nD τ), .dma kr) 0)
      ⊢ iprop(((cred (tallyAt ((c : Thread nD τ), .dma ks) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sAt oi inbi) (.remote (Dev.tc n : Thread nD τ) (oAt ok inbk) (.dma ks) hsc) (.dma kr) hsrc hdst hsem) k) Q) := by
  subst hn
  exact Rounds.wp_send_pointsTo 𝒱₀ ER (rd m) (c : Thread nD τ) none (c' := (peer c : Thread nD τ)) (src := sAt oi inbi) (dst := oAt ok inbk)
    (q := fullShare) (fs := (sendHalf m c : Buf (Elt F) ((sAt oi inbi).view.loc (c : Thread nD τ))))
    (κ₁ := κ₁) (κ₂ := κ₂) (r₁ := 0) (r₂ := 0) (d₁ := ()) (d₂ := ()) (fd := m ((oAt ok inbk).view.loc (peer c : Thread nD τ)))
    (by rw [duties_cell m c _ hks]; exact Finset.mem_singleton_self _) (by rw [duties_cell m (peer c) _ hkr]; exact Finset.mem_singleton_self _)
    () () N rfl (amount_dma m c ks ()) (amount_dma m (peer c) kr ()) O rfl (W := W)
    (by rw [es]; iintro H; iexists _; iexact H)
    (Entails.of_eq (by rw [er (peer c) (yOf_peer c)]; unfold landed; rw [peer_peer]))

end Cert.KernelIdeal.A2A

end
-- ==== Proof.Staged.lean ====
import proofs.«900490_g7700000000000491_dist_a2a_v7x_xyz2x2x2_y_m1024_n512_bf16_1_alg».proof.Proof.Schedule
import Idealize.ShloMosaic.Lib.Writes
import Idealize.ShloMosaic.Lib.ValueIdx
import Idealize.ShloMosaic.Lib.Pipeline.Value

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

/-- Every staged payload is the change of format, element by element. -/
theorem cvt_pay (v : Vec F S256x512 .f32) :
    shapeCast S256x512 (truncf .bf16 v bitsLt_bf16_f32) shapeCasts_S256x512_S256x512 = fun i => cvt (v i) := by
  rw [shapeCast_self]
  rfl

theorem load_apply (r0 C : ℕ)
    (h2 : ∀ a, (![r0, C] : Fin 2 → ℕ) a + S256x512.size a ≤ S1024x1024.size a)
    (h3 : ∀ a, (![r0, 0] : Fin 2 → ℕ) a + S256x1024.size a ≤ S1024x1024.size a)
    (G : (A2.slice (Rect.unit (s := S1024x1024) ![r0, 0] S256x1024.size h3) (fun _ => rfl)).view.ty.Contents (Elt F))
    (X : S1024x1024.Idx → Elt F .f32) (x : S256x512.Idx) :
    View.readAt (Elt F) A2.view (Rect.unit (s := S1024x1024) ![r0, C] S256x512.size h2).toLoadRect
      ((A2.slice (Rect.unit (s := S1024x1024) ![r0, 0] S256x1024.size h3) (fun _ => rfl)).view.writes (Elt F) G
        [⟨Rect.whole S256x1024, ReadAs.same.apply (View.read (Elt F) (A0.slice (Rect.unit (s := S1024x1024) ![r0, 0] S256x1024.size h3) (fun _ => rfl)).view X)⟩]) x
      = X (ix2 (⟨r0 + (x 0).val, by have := h2 0; have := (x 0).isLt; simp at *; omega⟩ : Fin 1024) (⟨C + (x 1).val, by have := h2 1; have := (x 1).isLt; simp at *; omega⟩ : Fin 1024)) := by

  have hC : C + (x 1).val < 1024 := by have := h2 1; have := (x 1).isLt; simp at *; omega
  let y : S256x1024.Idx := ix2 (⟨(x 0).val, (x 0).isLt⟩ : Fin 256) (⟨C + (x 1).val, hC⟩ : Fin 1024)
  have hidx : (Rect.unit (s := S1024x1024) ![r0, C] S256x512.size h2).toLoadRect.idx x
      = (Rect.unit (s := S1024x1024) ![r0, 0] S256x1024.size h3).emb ((Rect.whole S256x1024).emb y) := by
    funext a; apply Fin.ext
    match a with
    | ⟨0, _⟩ => show r0 + 1 * (x 0).val = r0 + 1 * (0 + 1 * (x 0).val); omega
    | ⟨1, _⟩ => show C + 1 * (x 1).val = 0 + 1 * (0 + 1 * (C + (x 1).val)); omega
  rw [View.readAt_apply, hidx]
  have key := View.read_writes_cons_emb (A2.slice (Rect.unit (s := S1024x1024) ![r0, 0] S256x1024.size h3) (fun _ => rfl)).view G (Rect.whole S256x1024)
    (ReadAs.same.apply (View.read (Elt F) (A0.slice (Rect.unit (s := S1024x1024) ![r0, 0] S256x1024.size h3) (fun _ => rfl)).view X)) [] y

  refine key.trans ?_

  show X ((Rect.unit (s := S1024x1024) ![r0, 0] S256x1024.size h3).emb y) = X _
  refine congrArg X ?_
  funext a; apply Fin.ext
  match a with
  | ⟨0, _⟩ => show r0 + 1 * (x 0).val = r0 + (x 0).val; omega
  | ⟨1, _⟩ => show 0 + 1 * (C + (x 1).val) = C + (x 1).val; omega

theorem write_apply3 (r0 : ℕ) (h1 : ∀ a, (![r0, 0] : Fin 2 → ℕ) a + S256x512.size a ≤ S1024x512.size a)
    (s : (A3.access (Rect.unit (s := S1024x512) ![r0, 0] S256x512.size h1)).ty.Contents (Elt F))
    (w : S256x512.Idx → Elt F .bf16) (j : S1024x512.Idx)
    (hj : j ∈ (A3.access (Rect.unit (s := S1024x512) ![r0, 0] S256x512.size h1)).set) :
    ∃ x : S256x512.Idx, (j 0).val = r0 + (x 0).val ∧ (j 1).val = (x 1).val ∧
      View.write (Elt F) (A3.access (Rect.unit (s := S1024x512) ![r0, 0] S256x512.size h1)) s w Finset.univ j = w x := by
  obtain ⟨x, -, rfl⟩ := Finset.mem_map.mp hj
  refine ⟨x, ?_, ?_, ?_⟩
  · show r0 + 1 * (x 0).val = r0 + (x 0).val; omega
  · show 0 + 1 * (x 1).val = (x 1).val; omega
  · rw [View.write_emb_of_mem _ _ (Finset.mem_univ x)]
    exact cast_eq _ _

theorem write_apply4 (r0 : ℕ) (h1 : ∀ a, (![r0, 0] : Fin 2 → ℕ) a + S256x512.size a ≤ S1024x512.size a)
    (s : (A4.access (Rect.unit (s := S1024x512) ![r0, 0] S256x512.size h1)).ty.Contents (Elt F))
    (w : S256x512.Idx → Elt F .bf16) (j : S1024x512.Idx)
    (hj : j ∈ (A4.access (Rect.unit (s := S1024x512) ![r0, 0] S256x512.size h1)).set) :
    ∃ x : S256x512.Idx, (j 0).val = r0 + (x 0).val ∧ (j 1).val = (x 1).val ∧
      View.write (Elt F) (A4.access (Rect.unit (s := S1024x512) ![r0, 0] S256x512.size h1)) s w Finset.univ j = w x := by
  obtain ⟨x, -, rfl⟩ := Finset.mem_map.mp hj
  refine ⟨x, ?_, ?_, ?_⟩
  · show r0 + 1 * (x 0).val = r0 + (x 0).val; omega
  · show 0 + 1 * (x 1).val = (x 1).val; omega
  · rw [View.write_emb_of_mem _ _ (Finset.mem_univ x)]
    exact cast_eq _ _

variable (m : (ℓ : Loc nD τ sig) → Buf (Elt F) ℓ)

theorem staged3 (r0 C : ℕ)
    (h1 : ∀ a, (![r0, 0] : Fin 2 → ℕ) a + S256x512.size a ≤ S1024x512.size a)
    (h2 : ∀ a, (![r0, C] : Fin 2 → ℕ) a + S256x512.size a ≤ S1024x1024.size a)
    (h3 : ∀ a, (![r0, 0] : Fin 2 → ℕ) a + S256x1024.size a ≤ S1024x1024.size a)
    (pay : Vec F S256x512 .f32 → FVec F S256x512 .bf16) (hpay : ∀ v, pay v = fun i => cvt (v i))
    (c : Dev nD) (y : ℕ) (hC : C = 512 * (y % 2))
    (s : (A3.access (Rect.unit (s := S1024x512) ![r0, 0] S256x512.size h1)).ty.Contents (Elt F))
    (G : (A2.slice (Rect.unit (s := S1024x1024) ![r0, 0] S256x1024.size h3) (fun _ => rfl)).view.ty.Contents (Elt F)) :
    ∀ j ∈ (A3.access (Rect.unit (s := S1024x512) ![r0, 0] S256x512.size h1)).set,
      (View.write (Elt F) (A3.access (Rect.unit (s := S1024x512) ![r0, 0] S256x512.size h1)) s
        (pay (View.readAt (Elt F) A2.view (Rect.unit (s := S1024x1024) ![r0, C] S256x512.size h2).toLoadRect
          ((A2.slice (Rect.unit (s := S1024x1024) ![r0, 0] S256x1024.size h3) (fun _ => rfl)).view.writes (Elt F) G
            [⟨Rect.whole S256x1024, ReadAs.same.apply (View.read (Elt F) (A0.slice (Rect.unit (s := S1024x1024) ![r0, 0] S256x1024.size h3) (fun _ => rfl)).view
              (m ((A0.slice (Rect.unit (s := S1024x1024) ![r0, 0] S256x1024.size h3) (fun _ => rfl)).view.loc (c : Thread nD τ))))⟩])))
        Finset.univ) j = colsOf (m ((c : Thread nD τ).loc main_arg0)) y j := by
  intro j hj
  obtain ⟨x, hx0, hx1, hw⟩ := write_apply3 r0 h1 s _ j hj
  refine hw.trans ?_
  refine (congrFun (hpay _) x).trans ?_
  refine (congrArg cvt (load_apply r0 C h2 h3 G _ x)).trans ?_
  refine congrArg (fun i => cvt (m ((c : Thread nD τ).loc main_arg0) i)) ?_
  funext a; apply Fin.ext
  match a with
  | ⟨0, _⟩ => exact hx0.symm
  | ⟨1, _⟩ => show C + (x 1).val = 512 * (y % 2) + (j 1).val; omega

theorem staged4 (r0 C : ℕ)
    (h1 : ∀ a, (![r0, 0] : Fin 2 → ℕ) a + S256x512.size a ≤ S1024x512.size a)
    (h2 : ∀ a, (![r0, C] : Fin 2 → ℕ) a + S256x512.size a ≤ S1024x1024.size a)
    (h3 : ∀ a, (![r0, 0] : Fin 2 → ℕ) a + S256x1024.size a ≤ S1024x1024.size a)
    (pay : Vec F S256x512 .f32 → FVec F S256x512 .bf16) (hpay : ∀ v, pay v = fun i => cvt (v i))
    (c : Dev nD) (y : ℕ) (hC : C = 512 * (y % 2))
    (s : (A4.access (Rect.unit (s := S1024x512) ![r0, 0] S256x512.size h1)).ty.Contents (Elt F))
    (G : (A2.slice (Rect.unit (s := S1024x1024) ![r0, 0] S256x1024.size h3) (fun _ => rfl)).view.ty.Contents (Elt F)) :
    ∀ j ∈ (A4.access (Rect.unit (s := S1024x512) ![r0, 0] S256x512.size h1)).set,
      (View.write (Elt F) (A4.access (Rect.unit (s := S1024x512) ![r0, 0] S256x512.size h1)) s
        (pay (View.readAt (Elt F) A2.view (Rect.unit (s := S1024x1024) ![r0, C] S256x512.size h2).toLoadRect
          ((A2.slice (Rect.unit (s := S1024x1024) ![r0, 0] S256x1024.size h3) (fun _ => rfl)).view.writes (Elt F) G
            [⟨Rect.whole S256x1024, ReadAs.same.apply (View.read (Elt F) (A0.slice (Rect.unit (s := S1024x1024) ![r0, 0] S256x1024.size h3) (fun _ => rfl)).view
              (m ((A0.slice (Rect.unit (s := S1024x1024) ![r0, 0] S256x1024.size h3) (fun _ => rfl)).view.loc (c : Thread nD τ))))⟩])))
        Finset.univ) j = colsOf (m ((c : Thread nD τ).loc main_arg0)) y j := by
  intro j hj
  obtain ⟨x, hx0, hx1, hw⟩ := write_apply4 r0 h1 s _ j hj
  refine hw.trans ?_
  refine (congrFun (hpay _) x).trans ?_
  refine (congrArg cvt (load_apply r0 C h2 h3 G _ x)).trans ?_
  refine congrArg (fun i => cvt (m ((c : Thread nD τ).loc main_arg0) i)) ?_
  funext a; apply Fin.ext
  match a with
  | ⟨0, _⟩ => exact hx0.symm
  | ⟨1, _⟩ => show C + (x 1).val = 512 * (y % 2) + (j 1).val; omega

end Cert.KernelIdeal.A2A

end
-- ==== Proof.Kept.lean ====
import proofs.«900490_g7700000000000491_dist_a2a_v7x_xyz2x2x2_y_m1024_n512_bf16_1_alg».proof.Proof.Pieces
import proofs.«900490_g7700000000000491_dist_a2a_v7x_xyz2x2x2_y_m1024_n512_bf16_1_alg».proof.Proof.Staged

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

/-- Rows `oi …` of the kept-half scratch, at contents that agree there with `S`, written onto rows `ok …` of the result array: row `r` holds row `r - ok + oi` of `S`. -/
theorem own_l {ok oi : ℕ} {inbk : ∀ a, (![ok, 0] : Fin 2 → ℕ) a + S256x512.size a ≤ S2048x512.size a}
    {inbi : ∀ a, (![oi, 0] : Fin 2 → ℕ) a + S256x512.size a ≤ S1024x512.size a}
    (V : A1.view.ty.Contents (Elt F)) (T : A4.view.ty.Contents (Elt F)) (S : S1024x512.Idx → Elt F .bf16)
    (hT : ∀ i ∈ (A4.view.slice (Rect.unit (s := S1024x512) ![oi, 0] S256x512.size inbi)).set, T i = S i)
    (j : S2048x512.Idx) (r : Fin 1024)
    (hj : j ∈ (A1.view.slice (Rect.unit (s := S2048x512) ![ok, 0] S256x512.size inbk)).set)
    (hr : r.val + ok = (j 0).val + oi) :
    ((A1.view.slice (Rect.unit (s := S2048x512) ![ok, 0] S256x512.size inbk) : View sig .tc .hbm S256x512 .bf16).writes (Elt F) V
      [⟨Rect.whole S256x512, ReadAs.same.apply (View.read (Elt F)
        (A4.view.slice (Rect.unit (s := S1024x512) ![oi, 0] S256x512.size inbi) : View sig .tc .vmem S256x512 .bf16) T)⟩]) j
      = S (ix2 r (j 1)) := by
  obtain ⟨y, rfl⟩ := View.exists_emb_of_mem_set _ hj
  have h0 : r.val + ok = (ok + 1 * (y 0).val) + oi := hr
  have key := View.write_emb_of_mem
    (v := ((A1.view.slice (Rect.unit (s := S2048x512) ![ok, 0] S256x512.size inbk) : View sig .tc .hbm S256x512 .bf16).slice (Rect.whole S256x512)))
    (Val := Elt F) V
    (ReadAs.same.apply (View.read (Elt F)
      (A4.view.slice (Rect.unit (s := S1024x512) ![oi, 0] S256x512.size inbi) : View sig .tc .vmem S256x512 .bf16) T))
    (M := Finset.univ) (x := y) (Finset.mem_univ y)
  have hy : ((A1.view.slice (Rect.unit (s := S2048x512) ![ok, 0] S256x512.size inbk) : View sig .tc .hbm S256x512 .bf16).slice (Rect.whole S256x512)).emb y
      = (A1.view.slice (Rect.unit (s := S2048x512) ![ok, 0] S256x512.size inbk)).emb y := by
    show (A1.view.slice (Rect.unit (s := S2048x512) ![ok, 0] S256x512.size inbk)).emb ((Rect.whole S256x512).emb y) = _
    rw [Rect.emb_whole_apply]
  rw [hy] at key
  rw [View.writes_singleton]
  refine key.trans ?_
  have e : (A4.view.slice (Rect.unit (s := S1024x512) ![oi, 0] S256x512.size inbi)).emb y
      = ix2 r ((A1.view.slice (Rect.unit (s := S2048x512) ![ok, 0] S256x512.size inbk)).emb y 1) := by
    funext a
    match a with
    | ⟨0, _⟩ => exact Fin.ext (by show oi + 1 * (y 0).val = r.val; omega)
    | ⟨1, _⟩ => exact Fin.ext rfl
  show _root_.cast _ (_root_.cast _ (T ((A4.view.slice (Rect.unit (s := S1024x512) ![oi, 0] S256x512.size inbi)).emb y))) = _
  rw [hT _ (View.emb_mem_set _ y), e]; rfl

variable (m : (ℓ : Loc nD τ sig) → Buf (Elt F) ℓ)

/-- The device's own rows `oi …`, columns `512 · y …` of its input block, copied to row `1024 · y + oi` of its result array, are the final contents there. -/
theorem own_outF (c : Dev nD) {ok oi C : ℕ}
    {inbk : ∀ a, (![ok, 0] : Fin 2 → ℕ) a + S256x512.size a ≤ S2048x512.size a}
    {h1 : ∀ a, (![oi, 0] : Fin 2 → ℕ) a + S256x512.size a ≤ S1024x512.size a}
    {h2 : ∀ a, (![oi, C] : Fin 2 → ℕ) a + S256x512.size a ≤ S1024x1024.size a}
    {h3 : ∀ a, (![oi, 0] : Fin 2 → ℕ) a + S256x1024.size a ≤ S1024x1024.size a}
    (pay : Vec F S256x512 .f32 → FVec F S256x512 .bf16) (hpay : ∀ v, pay v = fun i => cvt (v i))
    (hC : C = 512 * (yOf c % 2)) (hok : ok = 1024 * yOf c + oi)
    (V : A1.view.ty.Contents (Elt F))
    (l : (A4.access (Rect.unit (s := S1024x512) ![oi, 0] S256x512.size h1)).ty.Contents (Elt F))
    (G : (A2.slice (Rect.unit (s := S1024x1024) ![oi, 0] S256x1024.size h3) (fun _ => rfl)).view.ty.Contents (Elt F)) :
    ∀ j ∈ (A1.view.slice (Rect.unit (s := S2048x512) ![ok, 0] S256x512.size inbk)).set,
      ((A1.view.slice (Rect.unit (s := S2048x512) ![ok, 0] S256x512.size inbk) : View sig .tc .hbm S256x512 .bf16).writes (Elt F) V
        [⟨Rect.whole S256x512, ReadAs.same.apply (View.read (Elt F)
          (A4.view.slice (Rect.unit (s := S1024x512) ![oi, 0] S256x512.size h1) : View sig .tc .vmem S256x512 .bf16)
          (View.write (Elt F) (A4.access (Rect.unit (s := S1024x512) ![oi, 0] S256x512.size h1)) l
            (pay (View.readAt (Elt F) A2.view (Rect.unit (s := S1024x1024) ![oi, C] S256x512.size h2).toLoadRect
              ((A2.slice (Rect.unit (s := S1024x1024) ![oi, 0] S256x1024.size h3) (fun _ => rfl)).view.writes (Elt F) G
                [⟨Rect.whole S256x1024, ReadAs.same.apply (View.read (Elt F) (A0.slice (Rect.unit (s := S1024x1024) ![oi, 0] S256x1024.size h3) (fun _ => rfl)).view
                  (m ((A0.slice (Rect.unit (s := S1024x1024) ![oi, 0] S256x1024.size h3) (fun _ => rfl)).view.loc (c : Thread nD τ))))⟩])))
            Finset.univ))⟩]) j = outF m c j := by
  intro j hj
  have hm := (Cut.mem_rows (View.set_slice_whole _ _) j).mp hj
  have hi : oi + 256 ≤ 1024 := h1 0
  rw [outF_keep m c j (by omega)]
  exact own_l V _ (keepHalf m c) (staged4 m oi C h1 h2 h3 pay hpay c (yOf c) hC l G) j _ hj
    (by show (j 0).val % 1024 + ok = (j 0).val + oi; omega)

end Cert.KernelIdeal.A2A

end
-- ==== Proof.Body0.lean ====
import proofs.«900490_g7700000000000491_dist_a2a_v7x_xyz2x2x2_y_m1024_n512_bf16_1_alg».proof.Proof.Sends
import proofs.«900490_g7700000000000491_dist_a2a_v7x_xyz2x2x2_y_m1024_n512_bf16_1_alg».proof.Proof.Staged
import proofs.«900490_g7700000000000491_dist_a2a_v7x_xyz2x2x2_y_m1024_n512_bf16_1_alg».proof.Proof.Kept

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ)

attribute [local sl_canon] dev1_eq dev2_eq dev3_eq dev4_eq dev5_eq

set_option maxHeartbeats 4000000 in
set_option sl_exec.dischHeartbeats 100000 in
theorem body_y0 (K : Dev nD × Fin 9 → ℕ) (c : Dev nD) (hy : yOf c = 0) (W : Waits sig Unit) (Kt : PUnit → sProp 𝕄) :
    iprop(ghost m K c ∗ waitCred c ∗ levAts L lv ∗ ownZero c ∗ inBlocks m c ∗ scratchBlocks c ∗ outBlocks₀ m c ∗ owes (c : Thread nD τ) (O₀ c) W
        ∗ ((Φ₁ m c ∗ ∃ W', owes (c : Thread nD τ) 0 W') -∗ Kt ⟨⟩))
      ⊢ wp frame (wpE (defs₀ (F := F)) 𝒱₀ c none) Set.univ
          (cc0_body A0 (Memref.isWhole_whole _) A1 (Memref.isWhole_whole _) A2 (Memref.isWhole_whole _) A3 (Memref.isWhole_whole _) A4 (Memref.isWhole_whole _)
            cc0_scratch3 cc0_scratch4 cc0_scratch5 cc0_scratch6) Kt := by
  have hc : k0_cond1 c = 1#1 := (cond1_iff c).mpr hy
  have hc2 : ¬ k0_cond2 c = 1#1 := fun h => by have := (cond2_iff c).mp h; omega
  rw [cc0_body_eq_skeleton]; unfold cc0_body_skel
  unfold ghost invs positions reachedMarks payToks waitCred ownZero inBlocks scratchBlocks outBlocks₀ O₀ pt
  iintro ⟨⟨⟨#HIbar, #HIs0, #HIs1, #HIs2, #HIs3, #HIr0, #HIr1, #HIr2, #HIr3, #HIbarP, #HIrP0, #HIrP1, #HIrP2, #HIrP3⟩, ⟨HatB, HatS0, HatS1, HatS2, HatS3, HatR0, HatR1, HatR2, HatR3⟩, ⟨#HrBP, #HrRP0, #HrRP1, #HrRP2, #HrRP3, #HrS0, #HrS1, #HrS2, #HrS3⟩, ⟨HtBP, HtRP0, HtRP1, HtRP2, HtRP3, HtS0, HtS1, HtS2, HtS3⟩⟩, ⟨HcB, HcR0, HcR1, HcR2, HcR3⟩, #Hlev, ⟨Hz0, Hz1, Hz2, Hz3, Hz12, Hz13, Hz14, Hz15⟩, ⟨Hx0, Hx1, Hx2, Hx3⟩, ⟨⟨%g0, Hv0⟩, ⟨%g1, Hv1⟩, ⟨%g2, Hv2⟩, ⟨%g3, Hv3⟩, ⟨%s0, Hs0⟩, ⟨%s1, Hs1⟩, ⟨%s2, Hs2⟩, ⟨%s3, Hs3⟩, ⟨%l0, Hl0⟩, ⟨%l1, Hl1⟩, ⟨%l2, Hl2⟩, ⟨%l3, Hl3⟩⟩, ⟨Ho0, Ho1, Ho2, Ho3, Ho4, Ho5, Ho6, Ho7⟩, HO, Hk⟩

  ihave HtS0a := (aside_intro _) $$ HtS0
  ihave HtRP0a := (aside_intro _) $$ HtRP0
  ihave HtS1a := (aside_intro _) $$ HtS1
  ihave HtRP1a := (aside_intro _) $$ HtRP1
  ihave HtS2a := (aside_intro _) $$ HtS2
  ihave HtRP2a := (aside_intro _) $$ HtRP2
  ihave HtS3a := (aside_intro _) $$ HtS3
  ihave HtRP3a := (aside_intro _) $$ HtRP3
  have hmw : ∀ (sm : SemLoc sig) (O : CellTallies nD τ sig Unit), sm ∉ arrSems → OnArrivals O →
      ((levAts L lv : sProp 𝕄) ⊢ MayWait (c : Thread nD τ) sm () O) := fun sm O h1 h2 => mayWait_of_onArrivals c sm O h1 h2

  sl_exec (disch := first
    | ((repeat' (first | exact onArrivals_zero | exact onArrivals_tally _ _ (by decide) _ | apply onArrivals_add)); done)
    | exact dev1_eq c hc | exact dev2_eq c hc | exact dev3_eq c hc | exact dev4_eq c hc | exact dev5_eq c hc
    | decide)

  ihave Hs0c := (pt_to c ssl0 (sendHalf m c) (fun j hj => by sl_unfold_run_names; exact staged3 m 0 512 _ _ _ k0_pay1 cvt_pay c (1 - yOf c) (by rw [hy]) _ _ j hj)) $$ Hs0
  ihave HtS0 := (aside_elim _) $$ HtS0a
  ihave HtRP0 := (aside_elim _) $$ HtRP0a
  iapply (wp_send m c (peer c) rfl (K (c, 1)) (K (peer c, 5)) (by decide) (by decide) (payloadT_send0 m c) (fun d h => payloadT_recv0_y1 m d (h.trans (by rw [hy])) ()) _ _) $$ [HO HtS0 HtRP0 Hs0c HatB_pay1]
  · iframe # ∗
  iintro ⟨HcS0, HO⟩
  iapply (le_wp_ret _ _)
  sl_exec (disch := first
    | ((repeat' (first | exact onArrivals_zero | exact onArrivals_tally _ _ (by decide) _ | apply onArrivals_add)); done)
    | exact dev1_eq c hc | exact dev2_eq c hc | exact dev3_eq c hc | exact dev4_eq c hc | exact dev5_eq c hc
    | decide)

  ihave Hs1c := (pt_to c ssl1 (sendHalf m c) (fun j hj => by sl_unfold_run_names; exact staged3 m 256 512 _ _ _ k0_pay2 cvt_pay c (1 - yOf c) (by rw [hy]) _ _ j hj)) $$ Hs1
  ihave HtS1 := (aside_elim _) $$ HtS1a
  ihave HtRP1 := (aside_elim _) $$ HtRP1a
  iapply (wp_send m c (peer c) rfl (K (c, 2)) (K (peer c, 6)) (by decide) (by decide) (payloadT_send1 m c) (fun d h => payloadT_recv1_y1 m d (h.trans (by rw [hy])) ()) _ _) $$ [HO HtS1 HtRP1 Hs1c HatB_pay2]
  · iframe # ∗
  iintro ⟨HcS1, HO⟩
  sl_exec (disch := first
    | ((repeat' (first | exact onArrivals_zero | exact onArrivals_tally _ _ (by decide) _ | apply onArrivals_add)); done)
    | exact dev1_eq c hc | exact dev2_eq c hc | exact dev3_eq c hc | exact dev4_eq c hc | exact dev5_eq c hc
    | decide)

  ihave Hs2c := (pt_to c ssl2 (sendHalf m c) (fun j hj => by sl_unfold_run_names; exact staged3 m 512 512 _ _ _ k0_pay3 cvt_pay c (1 - yOf c) (by rw [hy]) _ _ j hj)) $$ Hs2
  ihave HtS2 := (aside_elim _) $$ HtS2a
  ihave HtRP2 := (aside_elim _) $$ HtRP2a
  iapply (wp_send m c (peer c) rfl (K (c, 3)) (K (peer c, 7)) (by decide) (by decide) (payloadT_send2 m c) (fun d h => payloadT_recv2_y1 m d (h.trans (by rw [hy])) ()) _ _) $$ [HO HtS2 HtRP2 Hs2c HatB_pay3]
  · iframe # ∗
  iintro ⟨HcS2, HO⟩
  sl_exec (disch := first
    | ((repeat' (first | exact onArrivals_zero | exact onArrivals_tally _ _ (by decide) _ | apply onArrivals_add)); done)
    | exact dev1_eq c hc | exact dev2_eq c hc | exact dev3_eq c hc | exact dev4_eq c hc | exact dev5_eq c hc
    | decide)

  ihave Hs3c := (pt_to c ssl3 (sendHalf m c) (fun j hj => by sl_unfold_run_names; exact staged3 m 768 512 _ _ _ k0_pay4 cvt_pay c (1 - yOf c) (by rw [hy]) _ _ j hj)) $$ Hs3
  ihave HtS3 := (aside_elim _) $$ HtS3a
  ihave HtRP3 := (aside_elim _) $$ HtRP3a
  iapply (wp_send m c (peer c) rfl (K (c, 4)) (K (peer c, 8)) (by decide) (by decide) (payloadT_send3 m c) (fun d h => payloadT_recv3_y1 m d (h.trans (by rw [hy])) ()) _ _) $$ [HO HtS3 HtRP3 Hs3c HatB_pay4]
  · iframe # ∗
  iintro ⟨HcS3, HO⟩
  sl_exec (disch := first
    | ((repeat' (first | exact onArrivals_zero | exact onArrivals_tally _ _ (by decide) _ | apply onArrivals_add)); done)
    | exact dev1_eq c hc | exact dev2_eq c hc | exact dev3_eq c hc | exact dev4_eq c hc | exact dev5_eq c hc
    | decide)

  imod (Rounds.cell_close ER (rd m) (Set.mem_univ (K (c, 1))) (fun h => h) (R := 0 + 1) (duties_later m (sendCell0 c))) $$ [HatS0] with HzS0
  · iframe # ∗
  imod (Rounds.cell_close ER (rd m) (Set.mem_univ (K (c, 2))) (fun h => h) (R := 0 + 1) (duties_later m (sendCell1 c))) $$ [HatS1] with HzS1
  · iframe # ∗
  imod (Rounds.cell_close ER (rd m) (Set.mem_univ (K (c, 3))) (fun h => h) (R := 0 + 1) (duties_later m (sendCell2 c))) $$ [HatS2] with HzS2
  · iframe # ∗
  imod (Rounds.cell_close ER (rd m) (Set.mem_univ (K (c, 4))) (fun h => h) (R := 0 + 1) (duties_later m (sendCell3 c))) $$ [HatS3] with HzS3
  · iframe # ∗
  imod (Rounds.cell_close ER (rd m) (Set.mem_univ (K (c, 5))) (fun h => h) (R := 0 + 1) (duties_later m (recvCell0 c))) $$ [HatR0] with HzR0
  · iframe # ∗
  imod (Rounds.cell_close ER (rd m) (Set.mem_univ (K (c, 6))) (fun h => h) (R := 0 + 1) (duties_later m (recvCell1 c))) $$ [HatR1] with HzR1
  · iframe # ∗
  imod (Rounds.cell_close ER (rd m) (Set.mem_univ (K (c, 7))) (fun h => h) (R := 0 + 1) (duties_later m (recvCell2 c))) $$ [HatR2] with HzR2
  · iframe # ∗
  imod (Rounds.cell_close ER (rd m) (Set.mem_univ (K (c, 8))) (fun h => h) (R := 0 + 1) (duties_later m (recvCell3 c))) $$ [HatR3] with HzR3
  · iframe # ∗
  iapply (le_wp_ret _ _)

  ihave Hn0 := (pt_to c osl0 (outF m c) (fun j hj => by sl_unfold_run_names; exact own_outF m c k0_pay5 cvt_pay (by rw [hy]) (by rw [hy]) _ _ _ j hj)) $$ Ho0
  ihave Hn4 := (pt_to c osl4 (outF m c) (landed_outF m c (by rw [hy]) _)) $$ HatR0_pay1
  ihave Hn1 := (pt_to c osl1 (outF m c) (fun j hj => by sl_unfold_run_names; exact own_outF m c k0_pay6 cvt_pay (by rw [hy]) (by rw [hy]) _ _ _ j hj)) $$ Ho1
  ihave Hn5 := (pt_to c osl5 (outF m c) (landed_outF m c (by rw [hy]) _)) $$ HatR1_pay1
  ihave Hn2 := (pt_to c osl2 (outF m c) (fun j hj => by sl_unfold_run_names; exact own_outF m c k0_pay7 cvt_pay (by rw [hy]) (by rw [hy]) _ _ _ j hj)) $$ Ho2
  ihave Hn6 := (pt_to c osl6 (outF m c) (landed_outF m c (by rw [hy]) _)) $$ HatR2_pay1
  ihave Hn3 := (pt_to c osl3 (outF m c) (fun j hj => by sl_unfold_run_names; exact own_outF m c k0_pay8 cvt_pay (by rw [hy]) (by rw [hy]) _ _ _ j hj)) $$ Ho3
  ihave Hn7 := (pt_to c osl7 (outF m c) (landed_outF m c (by rw [hy]) _)) $$ HatR3_pay1
  iapply Hk
  unfold Φ₁ ownZero cellsZero inBlocks scratchBlocks outBlocks₁
  iframe
  isplitr [HO]
  · isplitl [Hv0]; · iexists _; iexact Hv0
    isplitl [Hv1]; · iexists _; iexact Hv1
    isplitl [Hv2]; · iexists _; iexact Hv2
    isplitl [Hv3]; · iexists _; iexact Hv3
    isplitl [HatS0_pay1]; · iexists _; iexact HatS0_pay1
    isplitl [HatS1_pay1]; · iexists _; iexact HatS1_pay1
    isplitl [HatS2_pay1]; · iexists _; iexact HatS2_pay1
    isplitl [HatS3_pay1]; · iexists _; iexact HatS3_pay1
    isplitl [Hl0]; · iexists _; iexact Hl0
    isplitl [Hl1]; · iexists _; iexact Hl1
    isplitl [Hl2]; · iexists _; iexact Hl2
    iexists _; iexact Hl3
  · iexists _; iexact HO

end Cert.KernelIdeal.A2A

end
-- ==== Proof.Body1.lean ====
import proofs.«900490_g7700000000000491_dist_a2a_v7x_xyz2x2x2_y_m1024_n512_bf16_1_alg».proof.Proof.Sends
import proofs.«900490_g7700000000000491_dist_a2a_v7x_xyz2x2x2_y_m1024_n512_bf16_1_alg».proof.Proof.Staged
import proofs.«900490_g7700000000000491_dist_a2a_v7x_xyz2x2x2_y_m1024_n512_bf16_1_alg».proof.Proof.Kept

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ)

attribute [local sl_canon] dev6_eq dev7_eq dev8_eq dev9_eq dev10_eq

set_option maxHeartbeats 4000000 in
set_option sl_exec.dischHeartbeats 100000 in
theorem body_y1 (K : Dev nD × Fin 9 → ℕ) (c : Dev nD) (hy : yOf c = 1) (W : Waits sig Unit) (Kt : PUnit → sProp 𝕄) :
    iprop(ghost m K c ∗ waitCred c ∗ levAts L lv ∗ ownZero c ∗ inBlocks m c ∗ scratchBlocks c ∗ outBlocks₀ m c ∗ owes (c : Thread nD τ) (O₀ c) W
        ∗ ((Φ₁ m c ∗ ∃ W', owes (c : Thread nD τ) 0 W') -∗ Kt ⟨⟩))
      ⊢ wp frame (wpE (defs₀ (F := F)) 𝒱₀ c none) Set.univ
          (cc0_body A0 (Memref.isWhole_whole _) A1 (Memref.isWhole_whole _) A2 (Memref.isWhole_whole _) A3 (Memref.isWhole_whole _) A4 (Memref.isWhole_whole _)
            cc0_scratch3 cc0_scratch4 cc0_scratch5 cc0_scratch6) Kt := by
  have hc1 : ¬ k0_cond1 c = 1#1 := fun h => by have := (cond1_iff c).mp h; omega
  have hc2 : k0_cond2 c = 1#1 := (cond2_iff c).mpr hy
  rw [cc0_body_eq_skeleton]; unfold cc0_body_skel
  unfold ghost invs positions reachedMarks payToks waitCred ownZero inBlocks scratchBlocks outBlocks₀ O₀ pt
  iintro ⟨⟨⟨#HIbar, #HIs0, #HIs1, #HIs2, #HIs3, #HIr0, #HIr1, #HIr2, #HIr3, #HIbarP, #HIrP0, #HIrP1, #HIrP2, #HIrP3⟩, ⟨HatB, HatS0, HatS1, HatS2, HatS3, HatR0, HatR1, HatR2, HatR3⟩, ⟨#HrBP, #HrRP0, #HrRP1, #HrRP2, #HrRP3, #HrS0, #HrS1, #HrS2, #HrS3⟩, ⟨HtBP, HtRP0, HtRP1, HtRP2, HtRP3, HtS0, HtS1, HtS2, HtS3⟩⟩, ⟨HcB, HcR0, HcR1, HcR2, HcR3⟩, #Hlev, ⟨Hz0, Hz1, Hz2, Hz3, Hz12, Hz13, Hz14, Hz15⟩, ⟨Hx0, Hx1, Hx2, Hx3⟩, ⟨⟨%g0, Hv0⟩, ⟨%g1, Hv1⟩, ⟨%g2, Hv2⟩, ⟨%g3, Hv3⟩, ⟨%s0, Hs0⟩, ⟨%s1, Hs1⟩, ⟨%s2, Hs2⟩, ⟨%s3, Hs3⟩, ⟨%l0, Hl0⟩, ⟨%l1, Hl1⟩, ⟨%l2, Hl2⟩, ⟨%l3, Hl3⟩⟩, ⟨Ho0, Ho1, Ho2, Ho3, Ho4, Ho5, Ho6, Ho7⟩, HO, Hk⟩

  ihave HtS0a := (aside_intro _) $$ HtS0
  ihave HtRP0a := (aside_intro _) $$ HtRP0
  ihave HtS1a := (aside_intro _) $$ HtS1
  ihave HtRP1a := (aside_intro _) $$ HtRP1
  ihave HtS2a := (aside_intro _) $$ HtS2
  ihave HtRP2a := (aside_intro _) $$ HtRP2
  ihave HtS3a := (aside_intro _) $$ HtS3
  ihave HtRP3a := (aside_intro _) $$ HtRP3
  have hmw : ∀ (sm : SemLoc sig) (O : CellTallies nD τ sig Unit), sm ∉ arrSems → OnArrivals O →
      ((levAts L lv : sProp 𝕄) ⊢ MayWait (c : Thread nD τ) sm () O) := fun sm O h1 h2 => mayWait_of_onArrivals c sm O h1 h2

  sl_exec (disch := first
    | ((repeat' (first | exact onArrivals_zero | exact onArrivals_tally _ _ (by decide) _ | apply onArrivals_add)); done)
    | exact dev6_eq c hc2 | exact dev7_eq c hc2 | exact dev8_eq c hc2 | exact dev9_eq c hc2 | exact dev10_eq c hc2
    | decide)

  ihave Hs0c := (pt_to c ssl0 (sendHalf m c) (fun j hj => by sl_unfold_run_names; exact staged3 m 0 0 _ _ _ k0_pay9 cvt_pay c (1 - yOf c) (by rw [hy]) _ _ j hj)) $$ Hs0
  ihave HtS0 := (aside_elim _) $$ HtS0a
  ihave HtRP0 := (aside_elim _) $$ HtRP0a
  iapply (wp_send m c (peer c) rfl (K (c, 1)) (K (peer c, 5)) (by decide) (by decide) (payloadT_send0 m c) (fun d h => payloadT_recv0_y0 m d (h.trans (by rw [hy])) ()) _ _) $$ [HO HtS0 HtRP0 Hs0c HatB_pay1]
  · iframe # ∗
  iintro ⟨HcS0, HO⟩
  iapply (le_wp_ret _ _)
  sl_exec (disch := first
    | ((repeat' (first | exact onArrivals_zero | exact onArrivals_tally _ _ (by decide) _ | apply onArrivals_add)); done)
    | exact dev6_eq c hc2 | exact dev7_eq c hc2 | exact dev8_eq c hc2 | exact dev9_eq c hc2 | exact dev10_eq c hc2
    | decide)

  ihave Hs1c := (pt_to c ssl1 (sendHalf m c) (fun j hj => by sl_unfold_run_names; exact staged3 m 256 0 _ _ _ k0_pay10 cvt_pay c (1 - yOf c) (by rw [hy]) _ _ j hj)) $$ Hs1
  ihave HtS1 := (aside_elim _) $$ HtS1a
  ihave HtRP1 := (aside_elim _) $$ HtRP1a
  iapply (wp_send m c (peer c) rfl (K (c, 2)) (K (peer c, 6)) (by decide) (by decide) (payloadT_send1 m c) (fun d h => payloadT_recv1_y0 m d (h.trans (by rw [hy])) ()) _ _) $$ [HO HtS1 HtRP1 Hs1c HatB_pay2]
  · iframe # ∗
  iintro ⟨HcS1, HO⟩
  sl_exec (disch := first
    | ((repeat' (first | exact onArrivals_zero | exact onArrivals_tally _ _ (by decide) _ | apply onArrivals_add)); done)
    | exact dev6_eq c hc2 | exact dev7_eq c hc2 | exact dev8_eq c hc2 | exact dev9_eq c hc2 | exact dev10_eq c hc2
    | decide)

  ihave Hs2c := (pt_to c ssl2 (sendHalf m c) (fun j hj => by sl_unfold_run_names; exact staged3 m 512 0 _ _ _ k0_pay11 cvt_pay c (1 - yOf c) (by rw [hy]) _ _ j hj)) $$ Hs2
  ihave HtS2 := (aside_elim _) $$ HtS2a
  ihave HtRP2 := (aside_elim _) $$ HtRP2a
  iapply (wp_send m c (peer c) rfl (K (c, 3)) (K (peer c, 7)) (by decide) (by decide) (payloadT_send2 m c) (fun d h => payloadT_recv2_y0 m d (h.trans (by rw [hy])) ()) _ _) $$ [HO HtS2 HtRP2 Hs2c HatB_pay3]
  · iframe # ∗
  iintro ⟨HcS2, HO⟩
  sl_exec (disch := first
    | ((repeat' (first | exact onArrivals_zero | exact onArrivals_tally _ _ (by decide) _ | apply onArrivals_add)); done)
    | exact dev6_eq c hc2 | exact dev7_eq c hc2 | exact dev8_eq c hc2 | exact dev9_eq c hc2 | exact dev10_eq c hc2
    | decide)

  ihave Hs3c := (pt_to c ssl3 (sendHalf m c) (fun j hj => by sl_unfold_run_names; exact staged3 m 768 0 _ _ _ k0_pay12 cvt_pay c (1 - yOf c) (by rw [hy]) _ _ j hj)) $$ Hs3
  ihave HtS3 := (aside_elim _) $$ HtS3a
  ihave HtRP3 := (aside_elim _) $$ HtRP3a
  iapply (wp_send m c (peer c) rfl (K (c, 4)) (K (peer c, 8)) (by decide) (by decide) (payloadT_send3 m c) (fun d h => payloadT_recv3_y0 m d (h.trans (by rw [hy])) ()) _ _) $$ [HO HtS3 HtRP3 Hs3c HatB_pay4]
  · iframe # ∗
  iintro ⟨HcS3, HO⟩
  sl_exec (disch := first
    | ((repeat' (first | exact onArrivals_zero | exact onArrivals_tally _ _ (by decide) _ | apply onArrivals_add)); done)
    | exact dev6_eq c hc2 | exact dev7_eq c hc2 | exact dev8_eq c hc2 | exact dev9_eq c hc2 | exact dev10_eq c hc2
    | decide)

  imod (Rounds.cell_close ER (rd m) (Set.mem_univ (K (c, 1))) (fun h => h) (R := 0 + 1) (duties_later m (sendCell0 c))) $$ [HatS0] with HzS0
  · iframe # ∗
  imod (Rounds.cell_close ER (rd m) (Set.mem_univ (K (c, 2))) (fun h => h) (R := 0 + 1) (duties_later m (sendCell1 c))) $$ [HatS1] with HzS1
  · iframe # ∗
  imod (Rounds.cell_close ER (rd m) (Set.mem_univ (K (c, 3))) (fun h => h) (R := 0 + 1) (duties_later m (sendCell2 c))) $$ [HatS2] with HzS2
  · iframe # ∗
  imod (Rounds.cell_close ER (rd m) (Set.mem_univ (K (c, 4))) (fun h => h) (R := 0 + 1) (duties_later m (sendCell3 c))) $$ [HatS3] with HzS3
  · iframe # ∗
  imod (Rounds.cell_close ER (rd m) (Set.mem_univ (K (c, 5))) (fun h => h) (R := 0 + 1) (duties_later m (recvCell0 c))) $$ [HatR0] with HzR0
  · iframe # ∗
  imod (Rounds.cell_close ER (rd m) (Set.mem_univ (K (c, 6))) (fun h => h) (R := 0 + 1) (duties_later m (recvCell1 c))) $$ [HatR1] with HzR1
  · iframe # ∗
  imod (Rounds.cell_close ER (rd m) (Set.mem_univ (K (c, 7))) (fun h => h) (R := 0 + 1) (duties_later m (recvCell2 c))) $$ [HatR2] with HzR2
  · iframe # ∗
  imod (Rounds.cell_close ER (rd m) (Set.mem_univ (K (c, 8))) (fun h => h) (R := 0 + 1) (duties_later m (recvCell3 c))) $$ [HatR3] with HzR3
  · iframe # ∗
  iapply (le_wp_ret _ _)

  ihave Hn4 := (pt_to c osl4 (outF m c) (fun j hj => by sl_unfold_run_names; exact own_outF m c k0_pay13 cvt_pay (by rw [hy]) (by rw [hy]) _ _ _ j hj)) $$ Ho4
  ihave Hn0 := (pt_to c osl0 (outF m c) (landed_outF m c (by rw [hy]) _)) $$ HatR0_pay1
  ihave Hn5 := (pt_to c osl5 (outF m c) (fun j hj => by sl_unfold_run_names; exact own_outF m c k0_pay14 cvt_pay (by rw [hy]) (by rw [hy]) _ _ _ j hj)) $$ Ho5
  ihave Hn1 := (pt_to c osl1 (outF m c) (landed_outF m c (by rw [hy]) _)) $$ HatR1_pay1
  ihave Hn6 := (pt_to c osl6 (outF m c) (fun j hj => by sl_unfold_run_names; exact own_outF m c k0_pay15 cvt_pay (by rw [hy]) (by rw [hy]) _ _ _ j hj)) $$ Ho6
  ihave Hn2 := (pt_to c osl2 (outF m c) (landed_outF m c (by rw [hy]) _)) $$ HatR2_pay1
  ihave Hn7 := (pt_to c osl7 (outF m c) (fun j hj => by sl_unfold_run_names; exact own_outF m c k0_pay16 cvt_pay (by rw [hy]) (by rw [hy]) _ _ _ j hj)) $$ Ho7
  ihave Hn3 := (pt_to c osl3 (outF m c) (landed_outF m c (by rw [hy]) _)) $$ HatR3_pay1
  iapply Hk
  unfold Φ₁ ownZero cellsZero inBlocks scratchBlocks outBlocks₁
  iframe
  isplitr [HO]
  · isplitl [Hv0]; · iexists _; iexact Hv0
    isplitl [Hv1]; · iexists _; iexact Hv1
    isplitl [Hv2]; · iexists _; iexact Hv2
    isplitl [Hv3]; · iexists _; iexact Hv3
    isplitl [HatS0_pay1]; · iexists _; iexact HatS0_pay1
    isplitl [HatS1_pay1]; · iexists _; iexact HatS1_pay1
    isplitl [HatS2_pay1]; · iexists _; iexact HatS2_pay1
    isplitl [HatS3_pay1]; · iexists _; iexact HatS3_pay1
    isplitl [Hl0]; · iexists _; iexact Hl0
    isplitl [Hl1]; · iexists _; iexact Hl1
    isplitl [Hl2]; · iexists _; iexact Hl2
    iexists _; iexact Hl3
  · iexists _; iexact HO

end Cert.KernelIdeal.A2A

end
-- ==== Proof.Body.lean ====
import proofs.«900490_g7700000000000491_dist_a2a_v7x_xyz2x2x2_y_m1024_n512_bf16_1_alg».proof.Proof.Body0
import proofs.«900490_g7700000000000491_dist_a2a_v7x_xyz2x2x2_y_m1024_n512_bf16_1_alg».proof.Proof.Body1

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ)

omit [FloatOps F] in

theorem bigSep_W0 (Φ : Fin cfg0.W → sProp 𝕄) : bigSep Finset.univ Φ = iprop(emp) := by
  rw [show (Finset.univ : Finset (Fin cfg0.W)) = ∅ from Finset.univ_eq_empty]; exact bigSep_empty

set_option maxRecDepth 8000 in
theorem body_obligation (c : Dev nD) : BodyObligation (dats (F := F) m 0 c) (defs₀ (F := F)) 𝒱₀ () Set.univ := fun t => by
  rw [fin_N0 t]
  rw [bigSep_W0, bigSep_W0]
  show iprop(Φ₀ m c ∗ (dats m 0 c).owesAt () t0_0.castSucc ∗ emp)
    ⊢ wp frame (wpE (defs₀ (F := F)) 𝒱₀ c none) Set.univ
      (cc0_body A0 (Memref.isWhole_whole _) A1 (Memref.isWhole_whole _) A2 (Memref.isWhole_whole _) A3 (Memref.isWhole_whole _) A4 (Memref.isWhole_whole _)
        cc0_scratch3 cc0_scratch4 cc0_scratch5 cc0_scratch6)
      (fun _ => iprop(Φ₁ m c ∗ (dats m 0 c).owesAt () t0_0.succ ∗ emp))
  unfold Φ₀
  iintro ⟨⟨⟨%K, Hg⟩, Hwc, Hlev, Hz, Hin, Hscr, Hout⟩, Ho, -⟩
  unfold Dat.owesAt Pipeline.owesWithin
  icases Ho with ⟨%W, %hW, HO⟩
  rw [show (dats m 0 c).owed t0_0.castSucc = O₀ c from rfl, show (dats m 0 c).owed t0_0.succ = 0 from rfl]
  rcases yOf_cases c with hy | hy
  on_goal 1 => iapply (body_y0 m K c hy W _)
  on_goal 2 => iapply (body_y1 m K c hy W _)
  all_goals
    iframe
    iintro ⟨HΦ, ⟨%W', HO'⟩⟩
    isplitl [HΦ]; · iexact HΦ
    isplitl [HO']
    · iexists W'; isplitr; · (ipureintro; exact fun _ _ => Or.inl trivial)
      iexact HO'
    · iempintro

end Cert.KernelIdeal.A2A

end
-- ==== Proof.Value.lean ====
import proofs.«900490_g7700000000000491_dist_a2a_v7x_xyz2x2x2_y_m1024_n512_bf16_1_alg».proof.Defs
import proofs.«900490_g7700000000000491_dist_a2a_v7x_xyz2x2x2_y_m1024_n512_bf16_1_alg».proof.Proof.Schedule
import proofs.«900490_g7700000000000491_dist_a2a_v7x_xyz2x2x2_y_m1024_n512_bf16_1_alg».proof.Proof.Gen.ReferenceIdeal
import proofs.«900490_g7700000000000491_dist_a2a_v7x_xyz2x2x2_y_m1024_n512_bf16_1_alg».proof.Proof.Gen.ReferenceIdeal.Run
import proofs.«900490_g7700000000000491_dist_a2a_v7x_xyz2x2x2_y_m1024_n512_bf16_1_alg».proof.Proof.Gen.Pre_finite_inputs_ReferenceIdeal
import proofs.«900490_g7700000000000491_dist_a2a_v7x_xyz2x2x2_y_m1024_n512_bf16_1_alg».proof.Proof.Gen.Pre_finite_inputs_Kernel
import Idealize.ShloMosaic.Lib.Layout
import Idealize.ShloMosaic.Lib.ValueIdx
import Idealize.ShloMosaic.PureOps.Ideal

noncomputable section

namespace Cert.KernelIdeal.A2A.Value

open Cert.KernelIdeal Cert.KernelIdeal.Gen
open Idealize.ShloMosaic
open Idealize.ShloMosaic.TcCoe
open Idealize.SL.Sem
open Idealize.ShloMosaic.ValueIdx
open Cert.KernelIdeal.A2A

theorem idx_ext {i i' : (⟨2, ![2048, 1024]⟩ : Shape).Idx} (h0 : (i 0).val = (i' 0).val) (h1 : (i 1).val = (i' 1).val) :
    i = i' := by
  funext d
  match d with
  | ⟨0, _⟩ => exact Fin.ext h0
  | ⟨1, _⟩ => exact Fin.ext h1

theorem meshLin_mid (c : Dev nD) : Layout.meshLin [2, 2, 2] c.val [1] = yOf c := by revert c; decide

theorem outF_eq_block
    (m : (ℓ : Loc Cert.KernelIdeal.nD Cert.KernelIdeal.τ Cert.KernelIdeal.sig) → Buf (Elt Ideal) ℓ)
    (x : (⟨2, ![2048, 1024]⟩ : Shape).Idx → Elt Ideal .f32)
    (hagree : ∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[1], []] c) x)
    (c : Dev Cert.KernelIdeal.nD) :
    (outF (F := Ideal) m c : (⟨2, ![2048, 512]⟩ : Shape).Idx → Elt Ideal .bf16)
      = Layout.blockN ⟨2, ![2048, 512]⟩ ⟨2, ![2048, 1024]⟩ (Layout.meshBlock [2, 2, 2] ![[], [1]] c) (truncf (F := Ideal) .bf16 x Cert.ReferenceIdeal.Gen.bitsLt_bf16_f32) := by
  funext j
  have hj0 : (j 0).val < 2048 := (j 0).isLt
  have hj1 : (j 1).val < 512 := (j 1).isLt
  have hy : yOf c < 2 := yOf_lt c
  rw [Layout.blockN_apply, truncf_apply]
  unfold outF
  dsimp only
  by_cases h : (j 0).val / 1024 = yOf c
  · rw [if_pos h]
    unfold keepHalf colsOf cvt
    rw [Ideal.truncf_def, hagree c, Layout.blockN_apply]
    refine congrArg x (idx_ext ?_ ?_)
    · show Layout.meshLin [2, 2, 2] c.val [1] * 1024 + (j 0).val % 1024 = 0 * 2048 + (j 0).val
      rw [meshLin_mid]; omega
    · show 0 * 1024 + (512 * (yOf c % 2) + (j 1).val) = Layout.meshLin [2, 2, 2] c.val [1] * 512 + (j 1).val
      rw [meshLin_mid]; omega
  · rw [if_neg h]
    have hp : yOf (peer c) = 1 - yOf c := yOf_peer c
    unfold sendHalf colsOf cvt
    rw [Ideal.truncf_def, hagree (peer c), Layout.blockN_apply]
    refine congrArg x (idx_ext ?_ ?_)
    · show Layout.meshLin [2, 2, 2] (peer c).val [1] * 1024 + (j 0).val % 1024 = 0 * 2048 + (j 0).val
      rw [meshLin_mid]; omega
    · show 0 * 1024 + (512 * ((1 - yOf (peer c)) % 2) + (j 1).val) = Layout.meshLin [2, 2, 2] c.val [1] * 512 + (j 1).val
      rw [meshLin_mid]; omega

theorem frame_ref : Cert.frame_ReferenceIdeal (hReferenceIdeal := Cert.ReferenceIdeal.Gen.facts)
    (hPre_finite_inputs_ReferenceIdeal := Cert.Pre_finite_inputs_ReferenceIdeal.Gen.facts) :=
  fun m ρ _ => (θ_run Cert.ReferenceIdeal.defs _ _).mono (fun _ h c => (h c).2) (Cert.ReferenceIdeal.Value.run (F := Ideal) m ρ)

theorem ref_run_result
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = truncf (F := Ideal) .bf16 (m' (((0 : Dev Cert.ReferenceIdeal.nD).tc : Thread Cert.ReferenceIdeal.nD Cert.ReferenceIdeal.τ).loc Cert.ReferenceIdeal.main_arg0)) Cert.ReferenceIdeal.Gen.bitsLt_bf16_f32
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono (fun _ h => h 0) (Cert.ReferenceIdeal.Value.run (F := Ideal) m' g')

theorem algebraic_of_run
    (hrun : ∀ (m : (ℓ : Loc Cert.KernelIdeal.nD Cert.KernelIdeal.τ Cert.KernelIdeal.sig) → Buf (Elt Ideal) ℓ) (g : Dev Cert.KernelIdeal.nD → PrngReg),
      Cert.Pre_KernelIdeal (hPre_finite_inputs_Kernel := Cert.Pre_finite_inputs_Kernel.Gen.facts) m →
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v1) = outF (F := Ideal) m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))) :
    Cert.algebraic_KernelIdeal_ReferenceIdeal (hKernelIdeal := Cert.KernelIdeal.Gen.facts) (hReferenceIdeal := Cert.ReferenceIdeal.Gen.facts)
      (hPre_finite_inputs_Kernel := Cert.Pre_finite_inputs_Kernel.Gen.facts) := by
  intro m g m' g' hpre hagree
  exact ⟨_, (θ_run (Cert.KernelIdeal.defs (F := Ideal)) _ _).mono
      (fun r h c => ⟨(h c).1.trans (outF_eq_block m _ hagree c), (h c).2⟩) (hrun m g hpre),
    ref_run_result m' g'⟩

end Cert.KernelIdeal.A2A.Value

end
-- ==== Proof.Bits.Mesh.lean ====
import proofs.«900490_g7700000000000491_dist_a2a_v7x_xyz2x2x2_y_m1024_n512_bf16_1_alg».proof.Proof.Gen.Kernel.Frame
import proofs.«900490_g7700000000000491_dist_a2a_v7x_xyz2x2x2_y_m1024_n512_bf16_1_alg».proof.Proof.Gen.Kernel.Skeleton
import Idealize.ShloMosaic.Lib.Pipeline.Launch
import Idealize.ShloMosaic.Lib.Pipeline.Kit
import Idealize.ShloMosaic.Lib.Tactic
import Idealize.ShloMosaic.Lib.ValueIdx

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

def yOf (c : Dev nD) : ℕ := c.val / 2 % 2

def peer (c : Dev nD) : Dev nD := (![2, 3, 0, 1, 6, 7, 4, 5] : Fin 8 → Fin 8) c

theorem peer_peer (c : Dev nD) : peer (peer c) = c := by revert c; decide
theorem peer_ne (c : Dev nD) : peer c ≠ c := by revert c; decide
theorem yOf_lt (c : Dev nD) : yOf c < 2 := Nat.mod_lt _ (by decide)
theorem yOf_peer (c : Dev nD) : yOf (peer c) = 1 - yOf c := by revert c; decide
theorem yOf_cases (c : Dev nD) : yOf c = 0 ∨ yOf c = 1 := by revert c; decide

def peerEquiv : Dev nD ≃ Dev nD := ⟨peer, peer, peer_peer, peer_peer⟩

theorem cond1_iff (c : Dev nD) : k0_cond1 c = 1#1 ↔ yOf c = 0 := by revert c; decide +kernel
theorem cond2_iff (c : Dev nD) : k0_cond2 c = 1#1 ↔ yOf c = 1 := by revert c; decide +kernel

theorem dev_y0 : ∀ c : Dev nD, k0_cond1 c = 1#1 → 4 * (c.val / 4) + c.val % 2 + 2 = (peer c).val := by decide +kernel
theorem dev_y1 : ∀ c : Dev nD, k0_cond2 c = 1#1 → 4 * (c.val / 4) + c.val % 2 = (peer c).val := by decide +kernel

theorem dev1_eq (c : Dev nD) (h : k0_cond1 c = 1#1) : (⟨k0_dev1 c, k0_dev1_lt c h⟩ : Dev nD) = peer c := Fin.ext ((k0_dev1_eq c).trans (dev_y0 c h))
theorem dev2_eq (c : Dev nD) (h : k0_cond1 c = 1#1) : (⟨k0_dev2 c, k0_dev2_lt c h⟩ : Dev nD) = peer c := Fin.ext ((k0_dev2_eq c).trans (dev_y0 c h))
theorem dev3_eq (c : Dev nD) (h : k0_cond1 c = 1#1) : (⟨k0_dev3 c, k0_dev3_lt c h⟩ : Dev nD) = peer c := Fin.ext ((k0_dev3_eq c).trans (dev_y0 c h))
theorem dev4_eq (c : Dev nD) (h : k0_cond1 c = 1#1) : (⟨k0_dev4 c, k0_dev4_lt c h⟩ : Dev nD) = peer c := Fin.ext ((k0_dev4_eq c).trans (dev_y0 c h))
theorem dev5_eq (c : Dev nD) (h : k0_cond1 c = 1#1) : (⟨k0_dev5 c, k0_dev5_lt c h⟩ : Dev nD) = peer c := Fin.ext ((k0_dev5_eq c).trans (dev_y0 c h))
theorem dev6_eq (c : Dev nD) (h : k0_cond2 c = 1#1) : (⟨k0_dev6 c, k0_dev6_lt c h⟩ : Dev nD) = peer c := Fin.ext ((k0_dev6_eq c).trans (dev_y1 c h))
theorem dev7_eq (c : Dev nD) (h : k0_cond2 c = 1#1) : (⟨k0_dev7 c, k0_dev7_lt c h⟩ : Dev nD) = peer c := Fin.ext ((k0_dev7_eq c).trans (dev_y1 c h))
theorem dev8_eq (c : Dev nD) (h : k0_cond2 c = 1#1) : (⟨k0_dev8 c, k0_dev8_lt c h⟩ : Dev nD) = peer c := Fin.ext ((k0_dev8_eq c).trans (dev_y1 c h))
theorem dev9_eq (c : Dev nD) (h : k0_cond2 c = 1#1) : (⟨k0_dev9 c, k0_dev9_lt c h⟩ : Dev nD) = peer c := Fin.ext ((k0_dev9_eq c).trans (dev_y1 c h))
theorem dev10_eq (c : Dev nD) (h : k0_cond2 c = 1#1) : (⟨k0_dev10 c, k0_dev10_lt c h⟩ : Dev nD) = peer c := Fin.ext ((k0_dev10_eq c).trans (dev_y1 c h))

end Cert.Kernel.A2A

end
-- ==== Proof.Bits.Schedule.lean ====
import proofs.«900490_g7700000000000491_dist_a2a_v7x_xyz2x2x2_y_m1024_n512_bf16_1_alg».proof.Proof.Bits.Mesh

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ (UR sig nD τ × (URounds (GSem nD τ sig) Unit × Counters)) ℕ

abbrev UB : Type := URounds (GSem nD τ sig) Unit
abbrev UU : Type := UR sig nD τ × (UB × Counters)

abbrev EP : Emb (UR sig nD τ) (MT nD τ sig Unit (Elt F) ℕ UU ℕ) := embL
abbrev ER : Emb UB (MT nD τ sig Unit (Elt F) ℕ UU ℕ) := (Emb.inl : Emb UB (UB × Counters)).trans embR

abbrev 𝒱₀ : Variants := Variants.none

abbrev A0 : Memref sig .tc .hbm S1024x1024 .f32 := Memref.whole main_arg0
abbrev A1 : Memref sig .tc .hbm S2048x512 .bf16 := Memref.whole main_v1
abbrev A2 : Memref sig .tc .vmem S1024x1024 .f32 := Memref.whole cc0_scratch0
abbrev A3 : Memref sig .tc .vmem S1024x512 .bf16 := Memref.whole cc0_scratch1
abbrev A4 : Memref sig .tc .vmem S1024x512 .bf16 := Memref.whole cc0_scratch2

/-- The 256 rows from row `o` of the input block, of the three scratch buffers and of the result array. -/
abbrev xAt (o : ℕ) (h : ∀ a, (![o, 0] : Fin 2 → ℕ) a + S256x1024.size a ≤ S1024x1024.size a) : Memref sig .tc .hbm S256x1024 .f32 :=
  A0.slice (Rect.unit (s := S1024x1024) ![o, 0] S256x1024.size h) (fun _ => rfl)
abbrev vAt (o : ℕ) (h : ∀ a, (![o, 0] : Fin 2 → ℕ) a + S256x1024.size a ≤ S1024x1024.size a) : Memref sig .tc .vmem S256x1024 .f32 :=
  A2.slice (Rect.unit (s := S1024x1024) ![o, 0] S256x1024.size h) (fun _ => rfl)
abbrev sAt (o : ℕ) (h : ∀ a, (![o, 0] : Fin 2 → ℕ) a + S256x512.size a ≤ S1024x512.size a) : Memref sig .tc .vmem S256x512 .bf16 :=
  A3.slice (Rect.unit (s := S1024x512) ![o, 0] S256x512.size h) (fun _ => rfl)
abbrev lAt (o : ℕ) (h : ∀ a, (![o, 0] : Fin 2 → ℕ) a + S256x512.size a ≤ S1024x512.size a) : Memref sig .tc .vmem S256x512 .bf16 :=
  A4.slice (Rect.unit (s := S1024x512) ![o, 0] S256x512.size h) (fun _ => rfl)
abbrev oAt (o : ℕ) (h : ∀ a, (![o, 0] : Fin 2 → ℕ) a + S256x512.size a ≤ S2048x512.size a) : Memref sig .tc .hbm S256x512 .bf16 :=
  A1.slice (Rect.unit (s := S2048x512) ![o, 0] S256x512.size h) (fun _ => rfl)

abbrev xsl0 := xAt 0 Facts₀.inb_S1024x1024_S256x1024_0_0
abbrev vsl0 := vAt 0 Facts₀.inb_S1024x1024_S256x1024_0_0
abbrev ssl0 := sAt 0 Facts₀.inb_S1024x512_S256x512_0_0
abbrev lsl0 := lAt 0 Facts₀.inb_S1024x512_S256x512_0_0
abbrev xsl1 := xAt 256 Facts₀.inb_S1024x1024_S256x1024_256_0
abbrev vsl1 := vAt 256 Facts₀.inb_S1024x1024_S256x1024_256_0
abbrev ssl1 := sAt 256 Facts₀.inb_S1024x512_S256x512_256_0
abbrev lsl1 := lAt 256 Facts₀.inb_S1024x512_S256x512_256_0
abbrev xsl2 := xAt 512 Facts₀.inb_S1024x1024_S256x1024_512_0
abbrev vsl2 := vAt 512 Facts₀.inb_S1024x1024_S256x1024_512_0
abbrev ssl2 := sAt 512 Facts₀.inb_S1024x512_S256x512_512_0
abbrev lsl2 := lAt 512 Facts₀.inb_S1024x512_S256x512_512_0
abbrev xsl3 := xAt 768 Facts₀.inb_S1024x1024_S256x1024_768_0
abbrev vsl3 := vAt 768 Facts₀.inb_S1024x1024_S256x1024_768_0
abbrev ssl3 := sAt 768 Facts₀.inb_S1024x512_S256x512_768_0
abbrev lsl3 := lAt 768 Facts₀.inb_S1024x512_S256x512_768_0
abbrev osl0 := oAt 0 Facts₀.inb_S2048x512_S256x512_0_0
abbrev osl1 := oAt 256 Facts₀.inb_S2048x512_S256x512_256_0
abbrev osl2 := oAt 512 Facts₀.inb_S2048x512_S256x512_512_0
abbrev osl3 := oAt 768 Facts₀.inb_S2048x512_S256x512_768_0
abbrev osl4 := oAt 1024 Facts₀.inb_S2048x512_S256x512_1024_0
abbrev osl5 := oAt 1280 Facts₀.inb_S2048x512_S256x512_1280_0
abbrev osl6 := oAt 1536 Facts₀.inb_S2048x512_S256x512_1536_0
abbrev osl7 := oAt 1792 Facts₀.inb_S2048x512_S256x512_1792_0

abbrev barS : Sem sig := (SemArray.scalar (sig.barrier 0 rfl) : Sems sig S_).sem
abbrev dsem (k : Nat) (h : k < 16 := by decide) : DmaSem sig := ⟨k, h⟩

abbrev barCell (c : Dev nD) : GSem nD τ sig := ((c : Thread nD τ), .reg barS)
abbrev sendCell0 (c : Dev nD) : GSem nD τ sig := ((c : Thread nD τ), .dma (dsem 4))
abbrev recvCell0 (c : Dev nD) : GSem nD τ sig := ((c : Thread nD τ), .dma (dsem 8))
abbrev sendCell1 (c : Dev nD) : GSem nD τ sig := ((c : Thread nD τ), .dma (dsem 5))
abbrev recvCell1 (c : Dev nD) : GSem nD τ sig := ((c : Thread nD τ), .dma (dsem 9))
abbrev sendCell2 (c : Dev nD) : GSem nD τ sig := ((c : Thread nD τ), .dma (dsem 6))
abbrev recvCell2 (c : Dev nD) : GSem nD τ sig := ((c : Thread nD τ), .dma (dsem 10))
abbrev sendCell3 (c : Dev nD) : GSem nD τ sig := ((c : Thread nD τ), .dma (dsem 7))
abbrev recvCell3 (c : Dev nD) : GSem nD τ sig := ((c : Thread nD τ), .dma (dsem 11))

abbrev cellSems : List (SemLoc sig) :=
  [.reg barS, .dma (dsem 4), .dma (dsem 5), .dma (dsem 6), .dma (dsem 7), .dma (dsem 8), .dma (dsem 9), .dma (dsem 10), .dma (dsem 11)]

abbrev N : ℕ := (osl0 : Memref sig .tc .hbm S256x512 .bf16).view.dmaCredit
theorem N_pos : 0 < N := View.dmaCredit_pos _ (by decide)

variable (m : (ℓ : Loc nD τ sig) → Buf (Elt F) ℓ)

def cvt (x : Elt F .f32) : Elt F .bf16 := FloatOps.truncf .bf16 Facts₀.bitsLt_bf16_f32 x

def colsOf (X : S1024x1024.Idx → Elt F .f32) (y : ℕ) : S1024x512.Idx → Elt F .bf16 := fun j =>
  cvt (X (ix2 (j 0) (⟨512 * (y % 2) + (j 1).val, by
    have h1 : (j 1).val < 512 := (j 1).isLt
    have h2 : y % 2 < 2 := Nat.mod_lt _ (by decide)
    omega⟩ : Fin 1024)))

def sendHalf (c : Dev nD) : S1024x512.Idx → Elt F .bf16 := colsOf (m ((c : Thread nD τ).loc main_arg0)) (1 - yOf c)

def keepHalf (c : Dev nD) : S1024x512.Idx → Elt F .bf16 := colsOf (m ((c : Thread nD τ).loc main_arg0)) (yOf c)

def outF (c : Dev nD) : S2048x512.Idx → Elt F .bf16 := fun j =>
  let r : Fin 1024 := ⟨(j 0).val % 1024, Nat.mod_lt _ (by decide)⟩
  if (j 0).val / 1024 = yOf c then keepHalf m c (ix2 r (j 1)) else sendHalf m (peer c) (ix2 r (j 1))

/-- A row block held whole at contents `f`. -/
abbrev pt {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f

/-- An arrival on device `d`: rows `ok …` of its result array hold rows `oi …` of what its partner sends, written over what they held at launch. -/
abbrev landed (ok oi : ℕ) (d : Dev nD)
    (hk : ∀ a, (![ok, 0] : Fin 2 → ℕ) a + S256x512.size a ≤ S2048x512.size a := by decide)
    (hi : ∀ a, (![oi, 0] : Fin 2 → ℕ) a + S256x512.size a ≤ S1024x512.size a := by decide) : sProp 𝕄 :=
  pt (oAt ok hk) d ((oAt ok hk).view.write (Elt F) (m ((oAt ok hk).view.loc (d : Thread nD τ))) ((sAt oi hi).view.read (Elt F) (sendHalf m (peer d))) Finset.univ)

def sendPay0 (d : Dev nD) : sProp 𝕄 := iprop(∃ f, pt ssl0 d f)
def recvPay0 (d : Dev nD) : sProp 𝕄 := if yOf d = 0 then landed m 1024 0 d else landed m 0 0 d
def sendPay1 (d : Dev nD) : sProp 𝕄 := iprop(∃ f, pt ssl1 d f)
def recvPay1 (d : Dev nD) : sProp 𝕄 := if yOf d = 0 then landed m 1280 256 d else landed m 256 256 d
def sendPay2 (d : Dev nD) : sProp 𝕄 := iprop(∃ f, pt ssl2 d f)
def recvPay2 (d : Dev nD) : sProp 𝕄 := if yOf d = 0 then landed m 1536 512 d else landed m 512 512 d
def sendPay3 (d : Dev nD) : sProp 𝕄 := iprop(∃ f, pt ssl3 d f)
def recvPay3 (d : Dev nD) : sProp 𝕄 := if yOf d = 0 then landed m 1792 768 d else landed m 768 768 d
/-- The handshake hands over the four row blocks of the partner's result array that this device's copies fill, as launched. -/
def barPay (d : Dev nD) : sProp 𝕄 :=
  if yOf d = 0 then iprop(pt osl0 (peer d) (m _) ∗ pt osl1 (peer d) (m _) ∗ pt osl2 (peer d) (m _) ∗ pt osl3 (peer d) (m _)) else iprop(pt osl4 (peer d) (m _) ∗ pt osl5 (peer d) (m _) ∗ pt osl6 (peer d) (m _) ∗ pt osl7 (peer d) (m _))

abbrev IsCell (g : GSem nD τ sig) : Prop := g.1.2 = .tc ∧ g.2 ∈ cellSems

def rd : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay m g.1.1
    else if g.2 = .dma (dsem 4) then sendPay0 g.1.1
    else if g.2 = .dma (dsem 5) then sendPay1 g.1.1
    else if g.2 = .dma (dsem 6) then sendPay2 g.1.1
    else if g.2 = .dma (dsem 7) then sendPay3 g.1.1
    else if g.2 = .dma (dsem 8) then recvPay0 m g.1.1
    else if g.2 = .dma (dsem 9) then recvPay1 m g.1.1
    else if g.2 = .dma (dsem 10) then recvPay2 m g.1.1
    else if g.2 = .dma (dsem 11) then recvPay3 m g.1.1
    else iprop(emp)
  amount_pos g _ _ _ := by
    by_cases h : g.2 = .reg barS
    · rw [if_pos h]; exact Nat.one_pos
    · rw [if_neg h]; exact N_pos

section Tables
variable (c : Dev nD)

theorem dma_ne_bar (k : Nat) (h : k < 16) : (SemLoc.dma (dsem k h) : SemLoc sig) ≠ .reg barS := fun h => by cases h

theorem duties_cell (s : SemLoc sig) (hs : s ∈ cellSems) : (rd (F := F) m).duties ((c : Thread nD τ), s) 0 = {()} := by
  dsimp only [rd]; exact if_pos ⟨rfl, rfl, hs⟩
theorem duties_later (g : GSem nD τ sig) : ∀ r, 1 ≤ r → (rd (F := F) m).duties g r = ∅ :=
  fun r hr => by dsimp only [rd]; rw [if_neg fun h => by omega]

@[sl_rounds] theorem amount_dma (k : DmaSem sig) (d : Unit) : (rd (F := F) m).amount ((c : Thread nD τ), .dma k) 0 d = N := by
  dsimp only [rd]; exact if_neg fun h => by cases h
theorem expect_of {g : GSem nD τ sig} {n : ℕ} (hd : (rd (F := F) m).duties g 0 = {()}) (ha : ∀ d, (rd (F := F) m).amount g 0 d = n) :
    (rd (F := F) m).expect g 0 = n := by
  unfold Schedule.expect Schedule.amountOf; rw [hd, Finset.sum_singleton, ha]

@[sl_rounds] theorem duties_bar : (rd (F := F) m).duties (barCell c) 0 = {()} := duties_cell m c _ (by decide)
@[sl_rounds] theorem amount_bar (d : Unit) : (rd (F := F) m).amount (barCell c) 0 d = 1 := by dsimp only [rd]; exact if_pos rfl
@[sl_rounds] theorem expect_bar : (rd (F := F) m).expect (barCell c) 0 = 1 := expect_of m (duties_bar m c) (amount_bar m c)
theorem payload_bar (d : Unit) : (rd (F := F) m).payload (barCell c) 0 d = barPay m c := by
  dsimp only [rd]; rw [if_pos rfl]

@[sl_rounds] theorem duties_send0 : (rd (F := F) m).duties (sendCell0 c) 0 = {()} := duties_cell m c _ (by decide)
@[sl_rounds] theorem expect_send0 : (rd (F := F) m).expect (sendCell0 c) 0 = N := expect_of m (duties_send0 m c) (amount_dma m c _)
theorem payload_send0 (d : Unit) : (rd (F := F) m).payload (sendCell0 c) 0 d = sendPay0 c := by
  dsimp only [rd]; rw [if_neg (dma_ne_bar _ _), if_pos rfl]

@[sl_rounds] theorem duties_send1 : (rd (F := F) m).duties (sendCell1 c) 0 = {()} := duties_cell m c _ (by decide)
@[sl_rounds] theorem expect_send1 : (rd (F := F) m).expect (sendCell1 c) 0 = N := expect_of m (duties_send1 m c) (amount_dma m c _)
theorem payload_send1 (d : Unit) : (rd (F := F) m).payload (sendCell1 c) 0 d = sendPay1 c := by
  dsimp only [rd]; rw [if_neg (dma_ne_bar _ _), if_neg (by decide), if_pos rfl]

@[sl_rounds] theorem duties_send2 : (rd (F := F) m).duties (sendCell2 c) 0 = {()} := duties_cell m c _ (by decide)
@[sl_rounds] theorem expect_send2 : (rd (F := F) m).expect (sendCell2 c) 0 = N := expect_of m (duties_send2 m c) (amount_dma m c _)
theorem payload_send2 (d : Unit) : (rd (F := F) m).payload (sendCell2 c) 0 d = sendPay2 c := by
  dsimp only [rd]; rw [if_neg (dma_ne_bar _ _), if_neg (by decide), if_neg (by decide), if_pos rfl]

@[sl_rounds] theorem duties_send3 : (rd (F := F) m).duties (sendCell3 c) 0 = {()} := duties_cell m c _ (by decide)
@[sl_rounds] theorem expect_send3 : (rd (F := F) m).expect (sendCell3 c) 0 = N := expect_of m (duties_send3 m c) (amount_dma m c _)
theorem payload_send3 (d : Unit) : (rd (F := F) m).payload (sendCell3 c) 0 d = sendPay3 c := by
  dsimp only [rd]; rw [if_neg (dma_ne_bar _ _), if_neg (by decide), if_neg (by decide), if_neg (by decide), if_pos rfl]

@[sl_rounds] theorem duties_recv0 : (rd (F := F) m).duties (recvCell0 c) 0 = {()} := duties_cell m c _ (by decide)
@[sl_rounds] theorem expect_recv0 : (rd (F := F) m).expect (recvCell0 c) 0 = N := expect_of m (duties_recv0 m c) (amount_dma m c _)
theorem payload_recv0 (d : Unit) : (rd (F := F) m).payload (recvCell0 c) 0 d = recvPay0 m c := by
  dsimp only [rd]; rw [if_neg (dma_ne_bar _ _), if_neg (by decide), if_neg (by decide), if_neg (by decide), if_neg (by decide), if_pos rfl]

@[sl_rounds] theorem duties_recv1 : (rd (F := F) m).duties (recvCell1 c) 0 = {()} := duties_cell m c _ (by decide)
@[sl_rounds] theorem expect_recv1 : (rd (F := F) m).expect (recvCell1 c) 0 = N := expect_of m (duties_recv1 m c) (amount_dma m c _)
theorem payload_recv1 (d : Unit) : (rd (F := F) m).payload (recvCell1 c) 0 d = recvPay1 m c := by
  dsimp only [rd]; rw [if_neg (dma_ne_bar _ _), if_neg (by decide), if_neg (by decide), if_neg (by decide), if_neg (by decide), if_neg (by decide), if_pos rfl]

@[sl_rounds] theorem duties_recv2 : (rd (F := F) m).duties (recvCell2 c) 0 = {()} := duties_cell m c _ (by decide)
@[sl_rounds] theorem expect_recv2 : (rd (F := F) m).expect (recvCell2 c) 0 = N := expect_of m (duties_recv2 m c) (amount_dma m c _)
theorem payload_recv2 (d : Unit) : (rd (F := F) m).payload (recvCell2 c) 0 d = recvPay2 m c := by
  dsimp only [rd]; rw [if_neg (dma_ne_bar _ _), if_neg (by decide), if_neg (by decide), if_neg (by decide), if_neg (by decide), if_neg (by decide), if_neg (by decide), if_pos rfl]

@[sl_rounds] theorem duties_recv3 : (rd (F := F) m).duties (recvCell3 c) 0 = {()} := duties_cell m c _ (by decide)
@[sl_rounds] theorem expect_recv3 : (rd (F := F) m).expect (recvCell3 c) 0 = N := expect_of m (duties_recv3 m c) (amount_dma m c _)
theorem payload_recv3 (d : Unit) : (rd (F := F) m).payload (recvCell3 c) 0 d = recvPay3 m c := by
  dsimp only [rd]; rw [if_neg (dma_ne_bar _ _), if_neg (by decide), if_neg (by decide), if_neg (by decide), if_neg (by decide), if_neg (by decide), if_neg (by decide), if_neg (by decide), if_pos rfl]

@[sl_rounds] theorem payloadT_send0 (d : Unit) : (rd (F := F) m).payload (sendCell0 c) 0 d = iprop(∃ f, pt ssl0 c f) := by
  rw [payload_send0]; rfl
@[sl_rounds] theorem payloadT_recv0_y0 (hy : yOf c = 0) (d : Unit) : (rd (F := F) m).payload (recvCell0 c) 0 d = landed m 1024 0 c := by
  rw [payload_recv0]; unfold recvPay0; rw [if_pos hy]
@[sl_rounds] theorem payloadT_recv0_y1 (hy : yOf c = 1) (d : Unit) : (rd (F := F) m).payload (recvCell0 c) 0 d = landed m 0 0 c := by
  rw [payload_recv0]; unfold recvPay0; rw [if_neg (by omega)]
@[sl_rounds] theorem payloadT_send1 (d : Unit) : (rd (F := F) m).payload (sendCell1 c) 0 d = iprop(∃ f, pt ssl1 c f) := by
  rw [payload_send1]; rfl
@[sl_rounds] theorem payloadT_recv1_y0 (hy : yOf c = 0) (d : Unit) : (rd (F := F) m).payload (recvCell1 c) 0 d = landed m 1280 256 c := by
  rw [payload_recv1]; unfold recvPay1; rw [if_pos hy]
@[sl_rounds] theorem payloadT_recv1_y1 (hy : yOf c = 1) (d : Unit) : (rd (F := F) m).payload (recvCell1 c) 0 d = landed m 256 256 c := by
  rw [payload_recv1]; unfold recvPay1; rw [if_neg (by omega)]
@[sl_rounds] theorem payloadT_send2 (d : Unit) : (rd (F := F) m).payload (sendCell2 c) 0 d = iprop(∃ f, pt ssl2 c f) := by
  rw [payload_send2]; rfl
@[sl_rounds] theorem payloadT_recv2_y0 (hy : yOf c = 0) (d : Unit) : (rd (F := F) m).payload (recvCell2 c) 0 d = landed m 1536 512 c := by
  rw [payload_recv2]; unfold recvPay2; rw [if_pos hy]
@[sl_rounds] theorem payloadT_recv2_y1 (hy : yOf c = 1) (d : Unit) : (rd (F := F) m).payload (recvCell2 c) 0 d = landed m 512 512 c := by
  rw [payload_recv2]; unfold recvPay2; rw [if_neg (by omega)]
@[sl_rounds] theorem payloadT_send3 (d : Unit) : (rd (F := F) m).payload (sendCell3 c) 0 d = iprop(∃ f, pt ssl3 c f) := by
  rw [payload_send3]; rfl
@[sl_rounds] theorem payloadT_recv3_y0 (hy : yOf c = 0) (d : Unit) : (rd (F := F) m).payload (recvCell3 c) 0 d = landed m 1792 768 c := by
  rw [payload_recv3]; unfold recvPay3; rw [if_pos hy]
@[sl_rounds] theorem payloadT_recv3_y1 (hy : yOf c = 1) (d : Unit) : (rd (F := F) m).payload (recvCell3 c) 0 d = landed m 768 768 c := by
  rw [payload_recv3]; unfold recvPay3; rw [if_neg (by omega)]
@[sl_rounds] theorem payloadT_bar_y0 (hy : yOf c = 0) (d : Unit) : (rd (F := F) m).payload (barCell c) 0 d = iprop(pt osl0 (peer c) (m _) ∗ pt osl1 (peer c) (m _) ∗ pt osl2 (peer c) (m _) ∗ pt osl3 (peer c) (m _)) := by
  rw [payload_bar]; unfold barPay; rw [if_pos hy]
@[sl_rounds] theorem payloadT_bar_y1 (hy : yOf c = 1) (d : Unit) : (rd (F := F) m).payload (barCell c) 0 d = iprop(pt osl4 (peer c) (m _) ∗ pt osl5 (peer c) (m _) ∗ pt osl6 (peer c) (m _) ∗ pt osl7 (peer c) (m _)) := by
  rw [payload_bar]; unfold barPay; rw [if_neg (by omega)]
@[sl_rounds] theorem payloadT_bar_peer_y0 (hy : yOf c = 0) (d : Unit) : (rd (F := F) m).payload (barCell (peer c)) 0 d = iprop(pt osl4 c (m _) ∗ pt osl5 c (m _) ∗ pt osl6 c (m _) ∗ pt osl7 c (m _)) := by
  rw [payloadT_bar_y1 m (peer c) (by rw [yOf_peer, hy])]; rw [peer_peer]
@[sl_rounds] theorem payloadT_bar_peer_y1 (hy : yOf c = 1) (d : Unit) : (rd (F := F) m).payload (barCell (peer c)) 0 d = iprop(pt osl0 c (m _) ∗ pt osl1 c (m _) ∗ pt osl2 c (m _) ∗ pt osl3 c (m _)) := by
  rw [payloadT_bar_y0 m (peer c) (by rw [yOf_peer, hy])]; rw [peer_peer]

end Tables

instance sendPay0_storable (d : Dev nD) : BI.Storable (upEmb : UEmb _ 𝕄) (sendPay0 (F := F) d) := by unfold sendPay0; infer_instance
instance recvPay0_storable (d : Dev nD) : BI.Storable (upEmb : UEmb _ 𝕄) (recvPay0 (F := F) m d) := by unfold recvPay0; split <;> infer_instance
instance sendPay1_storable (d : Dev nD) : BI.Storable (upEmb : UEmb _ 𝕄) (sendPay1 (F := F) d) := by unfold sendPay1; infer_instance
instance recvPay1_storable (d : Dev nD) : BI.Storable (upEmb : UEmb _ 𝕄) (recvPay1 (F := F) m d) := by unfold recvPay1; split <;> infer_instance
instance sendPay2_storable (d : Dev nD) : BI.Storable (upEmb : UEmb _ 𝕄) (sendPay2 (F := F) d) := by unfold sendPay2; infer_instance
instance recvPay2_storable (d : Dev nD) : BI.Storable (upEmb : UEmb _ 𝕄) (recvPay2 (F := F) m d) := by unfold recvPay2; split <;> infer_instance
instance sendPay3_storable (d : Dev nD) : BI.Storable (upEmb : UEmb _ 𝕄) (sendPay3 (F := F) d) := by unfold sendPay3; infer_instance
instance recvPay3_storable (d : Dev nD) : BI.Storable (upEmb : UEmb _ 𝕄) (recvPay3 (F := F) m d) := by unfold recvPay3; split <;> infer_instance
instance barPay_storable (d : Dev nD) : BI.Storable (upEmb : UEmb _ 𝕄) (barPay (F := F) m d) := by unfold barPay; split <;> infer_instance

instance rd_payload_storable (g : GSem nD τ sig) (r : ℕ) (d : Unit) :
    BI.Storable (upEmb : UEmb _ 𝕄) ((rd (F := F) m).payload g r d) := by
  dsimp only [rd]
  (repeat' split) <;> infer_instance

end Cert.Kernel.A2A

end
-- ==== Proof.Bits.Levels.lean ====
import proofs.«900490_g7700000000000491_dist_a2a_v7x_xyz2x2x2_y_m1024_n512_bf16_1_alg».proof.Proof.Bits.Schedule

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

abbrev arrSems : List (SemLoc sig) := [.dma (dsem 8), .dma (dsem 9), .dma (dsem 10), .dma (dsem 11)]

def L (g : GSem nD τ sig) : Finset Unit := if g.1.2 = .tc then {()} else ∅

def lv (g : GSem nD τ sig) (_ : Unit) : ℕ := if g.2 = .reg barS then 1 else if g.2 ∈ arrSems then 2 else 0

theorem L_of_ne (g : GSem nD τ sig) (h : g.1.2 ≠ .tc) : L g = ∅ := if_neg h
theorem L_tc (c : Dev nD) (sm : SemLoc sig) : L ((c : Thread nD τ), sm) = {()} := if_pos rfl

def OnArrivals (O : CellTallies nD τ sig Unit) : Prop := ∀ g u, 0 < O g u → g.1.2 = .tc ∧ g.2 ∈ arrSems

theorem onArrivals_zero : OnArrivals (0 : CellTallies nD τ sig Unit) := fun g u h => by
  rw [Pi.zero_apply, Finsupp.zero_apply] at h; exact absurd h (Nat.lt_irrefl 0)

theorem onArrivals_add {O₁ O₂ : CellTallies nD τ sig Unit} (h₁ : OnArrivals O₁) (h₂ : OnArrivals O₂) : OnArrivals (O₁ + O₂) := fun g u h => by
  rw [Pi.add_apply, Finsupp.add_apply] at h
  rcases Nat.add_pos_iff_pos_or_pos.mp h with h | h
  · exact h₁ g u h
  · exact h₂ g u h

theorem onArrivals_tally (c : Dev nD) (s : SemLoc sig) (hs : s ∈ arrSems) (n : ℕ) : OnArrivals (tallyAt ((c : Thread nD τ), s) () n) := fun g u h => by
  rw [tallyAt_apply] at h
  by_cases hg : g = ((c : Thread nD τ), s) ∧ u = ()
  · rw [hg.1]; exact ⟨rfl, hs⟩
  · rw [if_neg hg] at h; exact absurd h (Nat.lt_irrefl 0)

theorem lv_arr {g : GSem nD τ sig} (h : g.2 ∈ arrSems) (u : Unit) : lv g u = 2 := by
  have hne : g.2 ≠ .reg barS := fun h' => by rw [h'] at h; revert h; decide
  dsimp only [lv]; rw [if_neg hne, if_pos h]

theorem lv_low (c : Dev nD) (sm : SemLoc sig) (h : sm ∉ arrSems) (u : Unit) : lv ((c : Thread nD τ), sm) u ≤ 1 := by
  dsimp only [lv]
  by_cases hb : sm = .reg barS
  · rw [if_pos hb]
  · rw [if_neg hb, if_neg h]; exact Nat.zero_le 1

theorem mayWait_of_onArrivals (c : Dev nD) (sm : SemLoc sig) (O : CellTallies nD τ sig Unit) (hsm : sm ∉ arrSems) (hO : OnArrivals O) :
    (levAts L lv : sProp 𝕄) ⊢ MayWait (c : Thread nD τ) sm () O :=
  MayOwe.of_cut (L := L) (lev := lv) 1
    (fun p hp => by rw [Finset.mem_singleton.mp hp, L_tc]; exact Finset.mem_singleton_self _)
    (fun g u hg => by
      obtain ⟨⟨d, pr⟩, s⟩ := g
      have h := (hO _ u hg).1
      have h' : pr = .tc := h
      subst h'
      exact (L_tc d s).symm ▸ Finset.mem_singleton_self _)
    (fun p hp => by rw [Finset.mem_singleton.mp hp]; exact lv_low c sm hsm ())
    (fun g u hg => by rw [lv_arr (hO g u hg).2]; decide)

end Cert.Kernel.A2A

end
-- ==== Proof.Bits.Holdings.lean ====
import proofs.«900490_g7700000000000491_dist_a2a_v7x_xyz2x2x2_y_m1024_n512_bf16_1_alg».proof.Proof.Bits.Levels

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ)

abbrev csem : Fin 9 → SemLoc sig := fun
  | 0 => .reg barS | 1 => .dma (dsem 4) | 2 => .dma (dsem 5) | 3 => .dma (dsem 6) | 4 => .dma (dsem 7)
  | 5 => .dma (dsem 8) | 6 => .dma (dsem 9) | 7 => .dma (dsem 10) | 8 => .dma (dsem 11)
abbrev kcell (ck : Dev nD × Fin 9) : GSem nD τ sig := ((ck.1 : Thread nD τ), csem ck.2)

def O₀ (c : Dev nD) : CellTallies nD τ sig Unit :=
  0 + tallyAt (recvCell3 (peer c)) () N + tallyAt (recvCell2 (peer c)) () N + tallyAt (recvCell1 (peer c)) () N + tallyAt (recvCell0 (peer c)) () N
    + tallyAt (barCell (peer c)) () 1

def invs (K : Dev nD × Fin 9 → ℕ) (c : Dev nD) : sProp 𝕄 :=
  iprop(cellInv ER (rd m) (K (c, 0)) (barCell c)
    ∗ cellInv ER (rd m) (K (c, 1)) (sendCell0 c) ∗ cellInv ER (rd m) (K (c, 2)) (sendCell1 c) ∗ cellInv ER (rd m) (K (c, 3)) (sendCell2 c) ∗ cellInv ER (rd m) (K (c, 4)) (sendCell3 c)
    ∗ cellInv ER (rd m) (K (c, 5)) (recvCell0 c) ∗ cellInv ER (rd m) (K (c, 6)) (recvCell1 c) ∗ cellInv ER (rd m) (K (c, 7)) (recvCell2 c) ∗ cellInv ER (rd m) (K (c, 8)) (recvCell3 c)
    ∗ cellInv ER (rd m) (K (peer c, 0)) (barCell (peer c))
    ∗ cellInv ER (rd m) (K (peer c, 5)) (recvCell0 (peer c)) ∗ cellInv ER (rd m) (K (peer c, 6)) (recvCell1 (peer c)) ∗ cellInv ER (rd m) (K (peer c, 7)) (recvCell2 (peer c)) ∗ cellInv ER (rd m) (K (peer c, 8)) (recvCell3 (peer c)))

instance invs_persistent (K : Dev nD × Fin 9 → ℕ) (c : Dev nD) : BI.Persistent (invs m K c) := by unfold invs; infer_instance

def positions (c : Dev nD) : sProp 𝕄 :=
  iprop(atPos ER (barCell c) 0 ∅ 0
    ∗ atPos ER (sendCell0 c) 0 ∅ 0 ∗ atPos ER (sendCell1 c) 0 ∅ 0 ∗ atPos ER (sendCell2 c) 0 ∅ 0 ∗ atPos ER (sendCell3 c) 0 ∅ 0
    ∗ atPos ER (recvCell0 c) 0 ∅ 0 ∗ atPos ER (recvCell1 c) 0 ∅ 0 ∗ atPos ER (recvCell2 c) 0 ∅ 0 ∗ atPos ER (recvCell3 c) 0 ∅ 0)

def reachedMarks (c : Dev nD) : sProp 𝕄 :=
  iprop(reached ER (barCell (peer c)) 0
    ∗ reached ER (recvCell0 (peer c)) 0 ∗ reached ER (recvCell1 (peer c)) 0 ∗ reached ER (recvCell2 (peer c)) 0 ∗ reached ER (recvCell3 (peer c)) 0
    ∗ reached ER (sendCell0 c) 0 ∗ reached ER (sendCell1 c) 0 ∗ reached ER (sendCell2 c) 0 ∗ reached ER (sendCell3 c) 0)

instance reachedMarks_persistent (c : Dev nD) : BI.Persistent (reachedMarks (F := F) c) := by unfold reachedMarks; infer_instance

def payToks (c : Dev nD) : sProp 𝕄 :=
  iprop(dutyTok ER (barCell (peer c)) 0 ()
    ∗ dutyTok ER (recvCell0 (peer c)) 0 () ∗ dutyTok ER (recvCell1 (peer c)) 0 () ∗ dutyTok ER (recvCell2 (peer c)) 0 () ∗ dutyTok ER (recvCell3 (peer c)) 0 ()
    ∗ dutyTok ER (sendCell0 c) 0 () ∗ dutyTok ER (sendCell1 c) 0 () ∗ dutyTok ER (sendCell2 c) 0 () ∗ dutyTok ER (sendCell3 c) 0 ())

def ghost (K : Dev nD × Fin 9 → ℕ) (c : Dev nD) : sProp 𝕄 :=
  iprop(invs m K c ∗ positions c ∗ reachedMarks c ∗ payToks c)

def waitCred (c : Dev nD) : sProp 𝕄 :=
  iprop(cred (tallyAt (barCell c) () 1)
    ∗ cred (tallyAt (recvCell0 c) () N) ∗ cred (tallyAt (recvCell1 c) () N) ∗ cred (tallyAt (recvCell2 c) () N) ∗ cred (tallyAt (recvCell3 c) () N))

def ownZero (c : Dev nD) : sProp 𝕄 :=
  iprop(semVal ((c : Thread nD τ), .dma (dsem 0)) 0 ∗ semVal ((c : Thread nD τ), .dma (dsem 1)) 0 ∗ semVal ((c : Thread nD τ), .dma (dsem 2)) 0 ∗ semVal ((c : Thread nD τ), .dma (dsem 3)) 0
    ∗ semVal ((c : Thread nD τ), .dma (dsem 12)) 0 ∗ semVal ((c : Thread nD τ), .dma (dsem 13)) 0 ∗ semVal ((c : Thread nD τ), .dma (dsem 14)) 0 ∗ semVal ((c : Thread nD τ), .dma (dsem 15)) 0)

def inBlocks (c : Dev nD) : sProp 𝕄 :=
  iprop(pt xsl0 c (m _) ∗ pt xsl1 c (m _) ∗ pt xsl2 c (m _) ∗ pt xsl3 c (m _))

def scratchBlocks (c : Dev nD) : sProp 𝕄 :=
  iprop((∃ f, pt vsl0 c f) ∗ (∃ f, pt vsl1 c f) ∗ (∃ f, pt vsl2 c f) ∗ (∃ f, pt vsl3 c f)
    ∗ (∃ f, pt ssl0 c f) ∗ (∃ f, pt ssl1 c f) ∗ (∃ f, pt ssl2 c f) ∗ (∃ f, pt ssl3 c f)
    ∗ (∃ f, pt lsl0 c f) ∗ (∃ f, pt lsl1 c f) ∗ (∃ f, pt lsl2 c f) ∗ (∃ f, pt lsl3 c f))

def outBlocks₀ (c : Dev nD) : sProp 𝕄 :=
  iprop(pt osl0 c (m _) ∗ pt osl1 c (m _) ∗ pt osl2 c (m _) ∗ pt osl3 c (m _) ∗ pt osl4 c (m _) ∗ pt osl5 c (m _) ∗ pt osl6 c (m _) ∗ pt osl7 c (m _))

def outBlocks₁ (c : Dev nD) : sProp 𝕄 :=
  iprop(pt osl0 c (outF m c) ∗ pt osl1 c (outF m c) ∗ pt osl2 c (outF m c) ∗ pt osl3 c (outF m c) ∗ pt osl4 c (outF m c) ∗ pt osl5 c (outF m c) ∗ pt osl6 c (outF m c) ∗ pt osl7 c (outF m c))

def Φ₀ (c : Dev nD) : sProp 𝕄 :=
  iprop((∃ K, ghost m K c) ∗ waitCred c ∗ levAts L lv ∗ ownZero c ∗ inBlocks m c ∗ scratchBlocks c ∗ outBlocks₀ m c)

def cellsZero (c : Dev nD) : sProp 𝕄 :=
  iprop(semVal (sendCell0 c) 0 ∗ semVal (sendCell1 c) 0 ∗ semVal (sendCell2 c) 0 ∗ semVal (sendCell3 c) 0
    ∗ semVal (recvCell0 c) 0 ∗ semVal (recvCell1 c) 0 ∗ semVal (recvCell2 c) 0 ∗ semVal (recvCell3 c) 0)

def Φ₁ (c : Dev nD) : sProp 𝕄 :=
  iprop(ownZero c ∗ cellsZero c ∗ inBlocks m c ∗ scratchBlocks c ∗ outBlocks₁ m c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.A2A

end
-- ==== Proof.Bits.Pieces.lean ====
import proofs.«900490_g7700000000000491_dist_a2a_v7x_xyz2x2x2_y_m1024_n512_bf16_1_alg».proof.Proof.Bits.Schedule
import proofs.«900490_g7700000000000491_dist_a2a_v7x_xyz2x2x2_y_m1024_n512_bf16_1_alg».proof.Proof.Cut
import Idealize.ShloMosaic.Lib.Pipeline.Value

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx
open Cert.Cut

variable {F : FTy → Type} [FloatOps F]

local notation "𝕄" => MT nD τ sig Unit (Elt F) ℕ UU ℕ

section Blocks
variable (c : Dev nD)

theorem out_cut (f : Buf (Elt F) ((c : Thread nD τ).loc main_v1)) :
    (((c : Thread nD τ).loc main_v1) ↦{fullShare} f : sProp 𝕄)
      = iprop(pt osl0 c f ∗ pt osl1 c f ∗ pt osl2 c f ∗ pt osl3 c f ∗ pt osl4 c f ∗ pt osl5 c f ∗ pt osl6 c f ∗ pt osl7 c f) :=
  cut8 (ℓ := (c : Thread nD τ).loc main_v1) (fun i : S2048x512.Idx => (i 0).val) (a1 := 256) (a2 := 512) (a3 := 768) (a4 := 1024) (a5 := 1280) (a6 := 1536) (a7 := 1792) (a8 := 2048) (by decide) (by decide) (by decide) (by decide) (by decide) (by decide) (by decide) (fun i => (i 0).isLt)
    (mem_rows (I := osl0.view.set) (View.set_slice_whole _ _)) (mem_rows (I := osl1.view.set) (View.set_slice_whole _ _)) (mem_rows (I := osl2.view.set) (View.set_slice_whole _ _)) (mem_rows (I := osl3.view.set) (View.set_slice_whole _ _)) (mem_rows (I := osl4.view.set) (View.set_slice_whole _ _)) (mem_rows (I := osl5.view.set) (View.set_slice_whole _ _)) (mem_rows (I := osl6.view.set) (View.set_slice_whole _ _)) (mem_rows (I := osl7.view.set) (View.set_slice_whole _ _)) f

theorem in_cut (f : Buf (Elt F) ((c : Thread nD τ).loc main_arg0)) :
    (((c : Thread nD τ).loc main_arg0) ↦{fullShare} f : sProp 𝕄)
      = iprop(pt xsl0 c f ∗ pt xsl1 c f ∗ pt xsl2 c f ∗ pt xsl3 c f) :=
  cut4 (ℓ := (c : Thread nD τ).loc main_arg0) (fun i : S1024x1024.Idx => (i 0).val) (a1 := 256) (a2 := 512) (a3 := 768) (a4 := 1024) (by decide) (by decide) (by decide) (fun i => (i 0).isLt)
    (mem_rows (I := xsl0.view.set) (View.set_slice_whole _ _)) (mem_rows (I := xsl1.view.set) (View.set_slice_whole _ _)) (mem_rows (I := xsl2.view.set) (View.set_slice_whole _ _)) (mem_rows (I := xsl3.view.set) (View.set_slice_whole _ _)) f

theorem scr0_cut (f : Buf (Elt F) ((c : Thread nD τ).loc cc0_scratch0)) :
    (((c : Thread nD τ).loc cc0_scratch0) ↦{fullShare} f : sProp 𝕄)
      = iprop(pt vsl0 c f ∗ pt vsl1 c f ∗ pt vsl2 c f ∗ pt vsl3 c f) :=
  cut4 (ℓ := (c : Thread nD τ).loc cc0_scratch0) (fun i : S1024x1024.Idx => (i 0).val) (a1 := 256) (a2 := 512) (a3 := 768) (a4 := 1024) (by decide) (by decide) (by decide) (fun i => (i 0).isLt)
    (mem_rows (I := vsl0.view.set) (View.set_slice_whole _ _)) (mem_rows (I := vsl1.view.set) (View.set_slice_whole _ _)) (mem_rows (I := vsl2.view.set) (View.set_slice_whole _ _)) (mem_rows (I := vsl3.view.set) (View.set_slice_whole _ _)) f

theorem scr1_cut (f : Buf (Elt F) ((c : Thread nD τ).loc cc0_scratch1)) :
    (((c : Thread nD τ).loc cc0_scratch1) ↦{fullShare} f : sProp 𝕄)
      = iprop(pt ssl0 c f ∗ pt ssl1 c f ∗ pt ssl2 c f ∗ pt ssl3 c f) :=
  cut4 (ℓ := (c : Thread nD τ).loc cc0_scratch1) (fun i : S1024x512.Idx => (i 0).val) (a1 := 256) (a2 := 512) (a3 := 768) (a4 := 1024) (by decide) (by decide) (by decide) (fun i => (i 0).isLt)
    (mem_rows (I := ssl0.view.set) (View.set_slice_whole _ _)) (mem_rows (I := ssl1.view.set) (View.set_slice_whole _ _)) (mem_rows (I := ssl2.view.set) (View.set_slice_whole _ _)) (mem_rows (I := ssl3.view.set) (View.set_slice_whole _ _)) f

theorem scr2_cut (f : Buf (Elt F) ((c : Thread nD τ).loc cc0_scratch2)) :
    (((c : Thread nD τ).loc cc0_scratch2) ↦{fullShare} f : sProp 𝕄)
      = iprop(pt lsl0 c f ∗ pt lsl1 c f ∗ pt lsl2 c f ∗ pt lsl3 c f) :=
  cut4 (ℓ := (c : Thread nD τ).loc cc0_scratch2) (fun i : S1024x512.Idx => (i 0).val) (a1 := 256) (a2 := 512) (a3 := 768) (a4 := 1024) (by decide) (by decide) (by decide) (fun i => (i 0).isLt)
    (mem_rows (I := lsl0.view.set) (View.set_slice_whole _ _)) (mem_rows (I := lsl1.view.set) (View.set_slice_whole _ _)) (mem_rows (I := lsl2.view.set) (View.set_slice_whole _ _)) (mem_rows (I := lsl3.view.set) (View.set_slice_whole _ _)) f

theorem scr0_join :
    (iprop((∃ f, pt vsl0 c f) ∗ (∃ f, pt vsl1 c f) ∗ (∃ f, pt vsl2 c f) ∗ (∃ f, pt vsl3 c f)) : sProp 𝕄)
      ⊢ iprop(∃ f, (((c : Thread nD τ).loc cc0_scratch0) ↦{fullShare} f)) :=
  join4_exists (ℓ := (c : Thread nD τ).loc cc0_scratch0) (fun i : S1024x1024.Idx => (i 0).val) (a1 := 256) (a2 := 512) (a3 := 768) (a4 := 1024) (by decide) (by decide) (by decide) (fun i => (i 0).isLt)
    (mem_rows (I := vsl0.view.set) (View.set_slice_whole _ _)) (mem_rows (I := vsl1.view.set) (View.set_slice_whole _ _)) (mem_rows (I := vsl2.view.set) (View.set_slice_whole _ _)) (mem_rows (I := vsl3.view.set) (View.set_slice_whole _ _))

theorem scr1_join :
    (iprop((∃ f, pt ssl0 c f) ∗ (∃ f, pt ssl1 c f) ∗ (∃ f, pt ssl2 c f) ∗ (∃ f, pt ssl3 c f)) : sProp 𝕄)
      ⊢ iprop(∃ f, (((c : Thread nD τ).loc cc0_scratch1) ↦{fullShare} f)) :=
  join4_exists (ℓ := (c : Thread nD τ).loc cc0_scratch1) (fun i : S1024x512.Idx => (i 0).val) (a1 := 256) (a2 := 512) (a3 := 768) (a4 := 1024) (by decide) (by decide) (by decide) (fun i => (i 0).isLt)
    (mem_rows (I := ssl0.view.set) (View.set_slice_whole _ _)) (mem_rows (I := ssl1.view.set) (View.set_slice_whole _ _)) (mem_rows (I := ssl2.view.set) (View.set_slice_whole _ _)) (mem_rows (I := ssl3.view.set) (View.set_slice_whole _ _))

theorem scr2_join :
    (iprop((∃ f, pt lsl0 c f) ∗ (∃ f, pt lsl1 c f) ∗ (∃ f, pt lsl2 c f) ∗ (∃ f, pt lsl3 c f)) : sProp 𝕄)
      ⊢ iprop(∃ f, (((c : Thread nD τ).loc cc0_scratch2) ↦{fullShare} f)) :=
  join4_exists (ℓ := (c : Thread nD τ).loc cc0_scratch2) (fun i : S1024x512.Idx => (i 0).val) (a1 := 256) (a2 := 512) (a3 := 768) (a4 := 1024) (by decide) (by decide) (by decide) (fun i => (i 0).isLt)
    (mem_rows (I := lsl0.view.set) (View.set_slice_whole _ _)) (mem_rows (I := lsl1.view.set) (View.set_slice_whole _ _)) (mem_rows (I := lsl2.view.set) (View.set_slice_whole _ _)) (mem_rows (I := lsl3.view.set) (View.set_slice_whole _ _))

/-- A row block at contents that agree on it with `g` is the row block at `g`. -/
theorem pt_to {sp : Space} {s : Shape} {e : EltTy} (M : Memref sig .tc sp s e) {f : Buf (Elt F) (M.view.loc (c : Thread nD τ))}
    (g : Buf (Elt F) (M.view.loc (c : Thread nD τ))) (h : ∀ j ∈ M.view.set, f j = g j) : (pt M c f : sProp 𝕄) ⊢ pt M c g :=
  Entails.of_eq (pointsTo_congr h)

end Blocks

section Landed
variable (m : (ℓ : Loc nD τ sig) → Buf (Elt F) ℓ) (c : Dev nD)

theorem outF_send (j : S2048x512.Idx) (h : (j 0).val / 1024 ≠ yOf c) :
    outF m c j = sendHalf m (peer c) (ix2 (⟨(j 0).val % 1024, Nat.mod_lt _ (by decide)⟩ : Fin 1024) (j 1)) := by
  unfold outF; exact if_neg h

theorem outF_keep (j : S2048x512.Idx) (h : (j 0).val / 1024 = yOf c) :
    outF m c j = keepHalf m c (ix2 (⟨(j 0).val % 1024, Nat.mod_lt _ (by decide)⟩ : Fin 1024) (j 1)) := by
  unfold outF; exact if_pos h

/-- Rows `oi …` of the send scratch copied onto rows `ok …` of the result array: row `r` there holds the source's row `r - ok + oi`. -/
theorem landed_s {ok oi : ℕ} {inbk : ∀ a, (![ok, 0] : Fin 2 → ℕ) a + S256x512.size a ≤ S2048x512.size a}
    {inbi : ∀ a, (![oi, 0] : Fin 2 → ℕ) a + S256x512.size a ≤ S1024x512.size a}
    (V : A1.view.ty.Contents (Elt F)) (S : S1024x512.Idx → Elt F .bf16) (j : S2048x512.Idx) (r : Fin 1024)
    (hj : j ∈ (A1.view.slice (Rect.unit (s := S2048x512) ![ok, 0] S256x512.size inbk)).set)
    (hr : r.val + ok = (j 0).val + oi) :
    ((A1.view.slice (Rect.unit (s := S2048x512) ![ok, 0] S256x512.size inbk)).write (Elt F) V
      ((A3.view.slice (Rect.unit (s := S1024x512) ![oi, 0] S256x512.size inbi)).read (Elt F) S) Finset.univ) j
      = S (ix2 r (j 1)) := by
  obtain ⟨y, rfl⟩ := View.exists_emb_of_mem_set _ hj
  rw [View.write_emb_of_mem _ _ (Finset.mem_univ y), View.read_apply]
  have h0 : r.val + ok = (ok + 1 * (y 0).val) + oi := hr
  have e : (A3.view.slice (Rect.unit (s := S1024x512) ![oi, 0] S256x512.size inbi)).emb y
      = ix2 r ((A1.view.slice (Rect.unit (s := S2048x512) ![ok, 0] S256x512.size inbk)).emb y 1) := by
    funext a
    match a with
    | ⟨0, _⟩ => exact Fin.ext (by show oi + 1 * (y 0).val = r.val; omega)
    | ⟨1, _⟩ => exact Fin.ext rfl
  rw [e]; rfl

/-- The partner's rows `oi …` land in the other half of the device's result array, at row `1024 · (1 - y) + oi`: there they are the final contents. -/
theorem landed_outF {ok oi : ℕ} {inbk : ∀ a, (![ok, 0] : Fin 2 → ℕ) a + S256x512.size a ≤ S2048x512.size a}
    {inbi : ∀ a, (![oi, 0] : Fin 2 → ℕ) a + S256x512.size a ≤ S1024x512.size a}
    (hok : ok = 1024 * (1 - yOf c) + oi) (V : A1.view.ty.Contents (Elt F)) :
    ∀ j ∈ (A1.view.slice (Rect.unit (s := S2048x512) ![ok, 0] S256x512.size inbk)).set,
      ((A1.view.slice (Rect.unit (s := S2048x512) ![ok, 0] S256x512.size inbk)).write (Elt F) V
        ((A3.view.slice (Rect.unit (s := S1024x512) ![oi, 0] S256x512.size inbi)).read (Elt F) (sendHalf m (peer c))) Finset.univ) j
        = outF m c j := by
  intro j hj
  have hm := (mem_rows (View.set_slice_whole _ _) j).mp hj
  have hi : oi + 256 ≤ 1024 := inbi 0
  have hy := yOf_lt c
  rw [outF_send m c j (by omega)]
  exact landed_s _ _ j _ hj (by show (j 0).val % 1024 + ok = (j 0).val + oi; omega)

end Landed

end Cert.Kernel.A2A

end
-- ==== Proof.Bits.Launch.lean ====
import proofs.«900490_g7700000000000491_dist_a2a_v7x_xyz2x2x2_y_m1024_n512_bf16_1_alg».proof.Proof.Bits.Holdings
import proofs.«900490_g7700000000000491_dist_a2a_v7x_xyz2x2x2_y_m1024_n512_bf16_1_alg».proof.Proof.Bits.Pieces

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

abbrev osem : Fin 16 → SemLoc sig := fun k => .dma ⟨k.val, k.isLt⟩

theorem ownSemFacts : Pipeline.OwnSemFacts cfg0.spec osem := by decide

theorem share_eq (c : Dev nD) (w : Fin cfg0.W) : (dats m 0 c).share w = fullShare := w.elim0

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

def xCells : Finset (GSem nD τ sig) := Finset.univ.map ⟨kcell, kcell_injective⟩

abbrev tokOf (ck : Dev nD × Fin 9) : GSem nD τ sig × ℕ × Unit := (kcell ck, 0, ())
theorem tokOf_injective : Function.Injective (tokOf : Dev nD × Fin 9 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), (initOf xCells xToks, 1))

def toks (c : Dev nD) : sProp 𝕄 := bigSep Finset.univ fun k : Fin 9 => dutyTok ER (kcell (c, k)) 0 ()

def G (c : Dev nD) : sProp 𝕄 :=
  iprop((bigSep Finset.univ fun k : Fin 9 => roundState ER (rd m) (kcell (c, k)) 0)
    ∗ (bigSep Finset.univ fun k : Fin 9 => iprop(atPos ER (kcell (c, k)) 0 ∅ 0 ∗ reached ER (kcell (c, k)) 0)) ∗ toks c)

def G' (c : Dev nD) : sProp 𝕄 := iprop((∃ K, ghost m K c) ∗ ownZero c)

omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund_cells : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 9 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]; rfl
  iintro HX
  imod (Rounds.fund ER (rd m) xCells xToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

omit [FloatOps F] in

theorem ownSems0_eq (c : Dev nD) : (Pipeline.ownSems0 (Ix := Unit) (Name := ℕ) (U := UU) (Lvl := ℕ) (Val := Elt F) (τ := τ) osem c : sProp 𝕄)
    = iprop(semVal ((c : Thread nD τ), .dma (dsem 0)) 0 ∗ semVal ((c : Thread nD τ), .dma (dsem 1)) 0 ∗ semVal ((c : Thread nD τ), .dma (dsem 2)) 0 ∗ semVal ((c : Thread nD τ), .dma (dsem 3)) 0
      ∗ semVal (sendCell0 c) 0 ∗ semVal (sendCell1 c) 0 ∗ semVal (sendCell2 c) 0 ∗ semVal (sendCell3 c) 0
      ∗ semVal (recvCell0 c) 0 ∗ semVal (recvCell1 c) 0 ∗ semVal (recvCell2 c) 0 ∗ semVal (recvCell3 c) 0
      ∗ semVal ((c : Thread nD τ), .dma (dsem 12)) 0 ∗ semVal ((c : Thread nD τ), .dma (dsem 13)) 0 ∗ semVal ((c : Thread nD τ), .dma (dsem 14)) 0 ∗ semVal ((c : Thread nD τ), .dma (dsem 15)) 0) := by
  rw [Pipeline.ownSems0_eq_of_list c osem [0, 1, 2, 3, 4, 5, 6, 7, 8, 9, 10, 11, 12, 13, 14, 15] (by decide) (by decide)]; rfl
omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 9 => semVal (kcell (c, k)) 0) ∗ ownZero c : sProp 𝕄) := by
  rw [ownSems0_eq, unscopedSems0_eq, bigSep_fin9]
  unfold ownZero
  iintro ⟨⟨H0, H1, H2, H3, S0, S1, S2, S3, R0, R1, R2, R3, H12, H13, H14, H15⟩, HB⟩
  iframe

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ ownZero c) := by
  unfold G
  iintro ⟨Hos, Hus, Hst, Hat, Htok⟩
  ihave Hv := (sems0_eq (F := F) c) $$ [Hos Hus]
  · iframe
  icases Hv with ⟨Hv, Hz⟩
  imod (show iprop((bigSep Finset.univ fun k : Fin 9 => semVal (kcell (c, k)) 0) ∗ bigSep Finset.univ fun k : Fin 9 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · iframe
  imodintro
  iframe

def records (K : Dev nD × Fin 9 → ℕ) : sProp 𝕄 :=
  iprop((bigSep Finset.univ fun ck : Dev nD × Fin 9 => cellInv ER (rd m) (K ck) (kcell ck))
    ∗ bigSep Finset.univ fun ck : Dev nD × Fin 9 => reached ER (kcell ck) 0)

instance records_persistent (K : Dev nD × Fin 9 → ℕ) : BI.Persistent (records m K) := by unfold records; infer_instance

theorem inv_at (K : Dev nD × Fin 9 → ℕ) (ck : Dev nD × Fin 9) :
    (bigSep Finset.univ fun ck : Dev nD × Fin 9 => (cellInv ER (rd m) (K ck) (kcell ck) : sProp 𝕄)) ⊢ cellInv ER (rd m) (K ck) (kcell ck) :=
  bigSep_elim (Finset.mem_univ ck)
omit [FloatOps F] in
theorem reached_at (ck : Dev nD × Fin 9) :
    (bigSep Finset.univ fun ck : Dev nD × Fin 9 => (reached ER (kcell ck) 0 : sProp 𝕄)) ⊢ reached ER (kcell ck) 0 :=
  bigSep_elim (Finset.mem_univ ck)

def linear (c : Dev nD) : sProp 𝕄 :=
  iprop((bigSep Finset.univ fun k : Fin 9 => atPos ER (kcell (c, k)) 0 ∅ 0) ∗ payToks c ∗ ownZero c)

theorem ghost_intro (K : Dev nD × Fin 9 → ℕ) (c : Dev nD) : iprop(records m K ∗ linear c) ⊢ G' m c := by
  unfold records linear G' ghost invs positions reachedMarks
  rw [bigSep_fin9]
  iintro ⟨⟨#HI, #HR⟩, ⟨Ha0, Ha1, Ha2, Ha3, Ha4, Ha5, Ha6, Ha7, Ha8⟩, Htok, Hz⟩
  isplitr [Hz]
  · iexists K
    isplitr
    · isplitr; · iapply (inv_at m K (c, 0)); iexact HI
      isplitr; · iapply (inv_at m K (c, 1)); iexact HI
      isplitr; · iapply (inv_at m K (c, 2)); iexact HI
      isplitr; · iapply (inv_at m K (c, 3)); iexact HI
      isplitr; · iapply (inv_at m K (c, 4)); iexact HI
      isplitr; · iapply (inv_at m K (c, 5)); iexact HI
      isplitr; · iapply (inv_at m K (c, 6)); iexact HI
      isplitr; · iapply (inv_at m K (c, 7)); iexact HI
      isplitr; · iapply (inv_at m K (c, 8)); iexact HI
      isplitr; · iapply (inv_at m K (peer c, 0)); iexact HI
      isplitr; · iapply (inv_at m K (peer c, 5)); iexact HI
      isplitr; · iapply (inv_at m K (peer c, 6)); iexact HI
      isplitr; · iapply (inv_at m K (peer c, 7)); iexact HI
      iapply (inv_at m K (peer c, 8)); iexact HI
    isplitr [Htok]
    · iframe
    isplitr
    · isplitr; · iapply (reached_at (F := F) (peer c, 0)); iexact HR
      isplitr; · iapply (reached_at (F := F) (peer c, 5)); iexact HR
      isplitr; · iapply (reached_at (F := F) (peer c, 6)); iexact HR
      isplitr; · iapply (reached_at (F := F) (peer c, 7)); iexact HR
      isplitr; · iapply (reached_at (F := F) (peer c, 8)); iexact HR
      isplitr; · iapply (reached_at (F := F) (c, 1)); iexact HR
      isplitr; · iapply (reached_at (F := F) (c, 2)); iexact HR
      isplitr; · iapply (reached_at (F := F) (c, 3)); iexact HR
      iapply (reached_at (F := F) (c, 4)); iexact HR
    iexact Htok
  · iexact Hz

omit [FloatOps F] in

theorem toks_eq (c : Dev nD) : (toks c : sProp 𝕄)
    = iprop(dutyTok ER (barCell c) 0 () ∗ dutyTok ER (sendCell0 c) 0 () ∗ dutyTok ER (sendCell1 c) 0 () ∗ dutyTok ER (sendCell2 c) 0 () ∗ dutyTok ER (sendCell3 c) 0 ()
      ∗ dutyTok ER (recvCell0 c) 0 () ∗ dutyTok ER (recvCell1 c) 0 () ∗ dutyTok ER (recvCell2 c) 0 () ∗ dutyTok ER (recvCell3 c) 0 ()) := by
  unfold toks; rw [bigSep_fin9]

omit [FloatOps F] in

theorem toks_around : (bigSep Finset.univ fun c : Dev nD => (toks c : sProp 𝕄)) ⊢ bigSep Finset.univ fun c : Dev nD => payToks c := by
  rw [bigSep_congr (s := Finset.univ) fun (c : Dev nD) _ => toks_eq (F := F) c]
  unfold payToks
  simp only [bigSep_sep']
  rw [bigSep_univ_equiv peerEquiv (fun c : Dev nD => (dutyTok ER (barCell c) 0 () : sProp 𝕄)),
    bigSep_univ_equiv peerEquiv (fun c : Dev nD => (dutyTok ER (recvCell0 c) 0 () : sProp 𝕄)),
    bigSep_univ_equiv peerEquiv (fun c : Dev nD => (dutyTok ER (recvCell1 c) 0 () : sProp 𝕄)),
    bigSep_univ_equiv peerEquiv (fun c : Dev nD => (dutyTok ER (recvCell2 c) 0 () : sProp 𝕄)),
    bigSep_univ_equiv peerEquiv (fun c : Dev nD => (dutyTok ER (recvCell3 c) 0 () : sProp 𝕄))]
  iintro ⟨HB, S0, S1, S2, S3, R0, R1, R2, R3⟩
  iframe
  isplitl [HB]; · iexact HB
  isplitl [R0]; · iexact R0
  isplitl [R1]; · iexact R1
  isplitl [R2]; · iexact R2
  iexact R3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ ownZero c) : sProp 𝕄)
      ⊢ bigSep Finset.univ (G' m) := by
  rw [bigSep_sep', bigSep_sep', bigSep_sep', ← bigSep_univ_prod (fun ck : Dev nD × Fin 9 => iprop(∃ κ : ℕ, cellInv ER (rd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok, Hz⟩
  ihave HK := (BI.bigSep_exists_pi Finset.univ (fun (ck : Dev nD × Fin 9) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (show iprop((bigSep Finset.univ fun c : Dev nD => bigSep Finset.univ fun k : Fin 9 => (atPos ER (kcell (c, k)) 0 ∅ 0 : sProp 𝕄))
        ∗ (bigSep Finset.univ fun c : Dev nD => (payToks c : sProp 𝕄)) ∗ (bigSep Finset.univ fun c : Dev nD => (ownZero c : sProp 𝕄)))
        ⊢ bigSep Finset.univ fun c : Dev nD => (linear c : sProp 𝕄) from by
      unfold linear; rw [bigSep_sep', bigSep_sep'])
    iframe

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in

theorem creds (c : Dev nD) : (Pipeline.launchCred O₀ c : sProp 𝕄) ⊢ waitCred c := by
  have e : (O₀ : Dev nD → CellTallies nD τ sig Unit) = fun d =>
      0 + tallyAt (((peer d).tc : Thread nD τ), SemLoc.dma (dsem 11)) () N + tallyAt (((peer d).tc : Thread nD τ), SemLoc.dma (dsem 10)) () N
        + tallyAt (((peer d).tc : Thread nD τ), SemLoc.dma (dsem 9)) () N + tallyAt (((peer d).tc : Thread nD τ), SemLoc.dma (dsem 8)) () N
        + tallyAt (((peer d).tc : Thread nD τ), SemLoc.reg barS) () 1 := rfl
  rw [e, Pipeline.launchCred_add, Pipeline.launchCred_add, Pipeline.launchCred_add, Pipeline.launchCred_add, Pipeline.launchCred_add]
  unfold waitCred
  have h (s : SemLoc sig) (n : ℕ) : (Pipeline.launchCred (fun d => tallyAt (((peer d).tc : Thread nD τ), s) () n) c : sProp 𝕄)
      ⊢ cred (tallyAt ((c : Thread nD τ), s) () n) := Pipeline.launchCred_tallyAt _ peer peer peer_peer peer_peer () n c
  iintro ⟨⟨⟨⟨⟨-, H3⟩, H2⟩, H1⟩, H0⟩, HB⟩
  isplitl [HB]; · iapply (h _ _); iexact HB
  isplitl [H0]; · iapply (h _ _); iexact H0
  isplitl [H1]; · iapply (h _ _); iexact H1
  isplitl [H2]; · iapply (h _ _); iexact H2
  iapply (h _ _); iexact H3

def X (c : Dev nD) : sProp 𝕄 :=
  iprop((∃ K, ghost m K c) ∗ ownZero c ∗ waitCred c ∗ levAts L lv
    ∗ (((c : Thread nD τ).loc main_arg0) ↦{fullShare} m ((c : Thread nD τ).loc main_arg0))
    ∗ (((c : Thread nD τ).loc main_v1) ↦{fullShare} m ((c : Thread nD τ).loc main_v1)))

def Y (c : Dev nD) : sProp 𝕄 :=
  iprop((((c : Thread nD τ).loc main_arg0) ↦{fullShare} m ((c : Thread nD τ).loc main_arg0))
    ∗ (((c : Thread nD τ).loc main_v1) ↦{fullShare} (outF m c : Buf (Elt F) ((c : Thread nD τ).loc main_v1))))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Ha, Hv⟩, Hlev, Hcr, -, HG⟩
  ihave Hc := (creds (F := F) c) $$ Hcr
  unfold G'
  icases HG with ⟨HG, Hz⟩
  imodintro
  unfold X
  iframe

theorem waits (c : Dev nD) : (levAts L lv : sProp 𝕄) ⊢ Pipeline.cellsWaits cfgs (dats m) () 0 c :=
  Pipeline.cellsWaits_intro cfgs (dats m) () 0 c fun w s t => w.elim0

set_option maxRecDepth 8000 in

theorem run_main_of [∀ e, Nonempty (Elt F e)]
    (hbody : ∀ c : Dev nD, BodyObligation (dats (F := F) m 0 c) (defs₀ (F := F)) 𝒱₀ () Set.univ)
    (hin : ∀ c : Dev nD, iprop(X m c ∗ Pipeline.prefHeld Pipeline.Prefetch.none c (fun _ => fullShare.right) (fun k => k.elim0) ∗ Pipeline.scopedRest cfg0.spec c)
      ⊢ (dats (F := F) m 0 c).Φ 0)
    (hout : ∀ c : Dev nD, (dats (F := F) m 0 c).Φ (Fin.last cfg0.N) ⊢ iprop(Y m c ∗ Pipeline.ownSems0 osem c ∗ Pipeline.scopedRest cfg0.spec c)) :
    θ_run defs (onTc (τ := τ) (main (F := F))) ⟨m, fun _ => 0, ρ⟩ (fun r => ∀ c : Dev nD,
      r.2.mem ((c.tc : Thread nD τ).loc main_v1) = outF m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HX, -⟩
      imod (fund_cells m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := hin) (hout := hout)
    (QY := fun c s => s.mem ((c.tc : Thread nD τ).loc main_v1) = outF m c
      ∧ s.mem ((c.tc : Thread nD τ).loc main_arg0) = m ((c.tc : Thread nD τ).loc main_arg0))
    (hY := fun c s' => by
      unfold Y
      iintro ⟨⟨Ha, Hv⟩, -, HSI⟩
      icombine HSI Ha gives %ha
      icombine HSI Hv gives %hv
      imodintro
      isplitr; · ipureintro; exact ⟨Buf.eq_of_forall_mem_univ hv, Buf.eq_of_forall_mem_univ ha⟩
      iexact HSI)
    (hQ := fun _ h c => (h c).2.2)

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold X Φ₀ inBlocks scratchBlocks outBlocks₀
  iintro ⟨⟨Hg, Hz, Hc, Hlev, Ha, Hv⟩, -, ⟨%f0, H0⟩, ⟨%f1, H1⟩, ⟨%f2, H2⟩⟩
  ihave Ha' := (Entails.of_eq (in_cut (F := F) c _)) $$ Ha
  icases Ha' with ⟨A0, A1, A2, A3⟩
  ihave Hv' := (Entails.of_eq (out_cut (F := F) c _)) $$ Hv
  icases Hv' with ⟨O0, O1, O2, O3, O4, O5, O6, O7⟩
  ihave H0' := (Entails.of_eq (scr0_cut (F := F) c f0)) $$ H0
  icases H0' with ⟨V0, V1, V2, V3⟩
  ihave H1' := (Entails.of_eq (scr1_cut (F := F) c f1)) $$ H1
  icases H1' with ⟨S0, S1, S2, S3⟩
  ihave H2' := (Entails.of_eq (scr2_cut (F := F) c f2)) $$ H2
  icases H2' with ⟨L0, L1, L2, L3⟩
  iframe
  isplitl [V0]; · iexists f0; iexact V0
  isplitl [V1]; · iexists f0; iexact V1
  isplitl [V2]; · iexists f0; iexact V2
  isplitl [V3]; · iexists f0; iexact V3
  isplitl [S0]; · iexists f1; iexact S0
  isplitl [S1]; · iexists f1; iexact S1
  isplitl [S2]; · iexists f1; iexact S2
  isplitl [S3]; · iexists f1; iexact S3
  isplitl [L0]; · iexists f2; iexact L0
  isplitl [L1]; · iexists f2; iexact L1
  isplitl [L2]; · iexists f2; iexact L2
  iexists f2; iexact L3

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y ownZero cellsZero inBlocks scratchBlocks outBlocks₁
  iintro ⟨⟨Z0, Z1, Z2, Z3, Z12, Z13, Z14, Z15⟩, ⟨S0, S1, S2, S3, R0, R1, R2, R3⟩, HA, ⟨V0, V1, V2, V3, T0, T1, T2, T3, L0, L1, L2, L3⟩, HO⟩
  ihave HA := (Entails.of_eq (in_cut (F := F) c (m ((c : Thread nD τ).loc main_arg0))).symm) $$ HA
  ihave HO := (Entails.of_eq (out_cut (F := F) c (outF m c)).symm) $$ HO
  ihave HV := (scr0_join (F := F) c) $$ [V0 V1 V2 V3]
  · iframe
  ihave HT := (scr1_join (F := F) c) $$ [T0 T1 T2 T3]
  · iframe
  ihave HL := (scr2_join (F := F) c) $$ [L0 L1 L2 L3]
  · iframe
  iframe

theorem run_main [∀ e, Nonempty (Elt F e)]
    (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outF m c
      ∧ r.2.mem ((c.tc : Thread nD τ).loc main_arg0) = m ((c.tc : Thread nD τ).loc main_arg0)) :=
  run_main_of m ρ hbody (phi0_intro m) (phi1_exit m)

end Cert.Kernel.A2A

end
-- ==== Proof.Bits.Sends.lean ====
import proofs.«900490_g7700000000000491_dist_a2a_v7x_xyz2x2x2_y_m1024_n512_bf16_1_alg».proof.Proof.Bits.Holdings

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ)

/-- The same assertion under another name, set aside until it is used. -/
def aside (P : sProp 𝕄) : sProp 𝕄 := P

omit [FloatOps F] in
theorem aside_intro (P : sProp 𝕄) : P ⊢ aside P := BI.Entails.refl _
omit [FloatOps F] in
theorem aside_elim (P : sProp 𝕄) : aside P ⊢ P := BI.Entails.refl _

/-- The copy of rows `oi …` of the send scratch to row `ok` of the partner's result array: the source rows lent to the departure cell, the written block handed to the partner's arrival cell, the arrival's credit paid. -/
theorem wp_send (c n : Dev nD) (hn : n = peer c) {ok oi : ℕ} {ks kr : DmaSem sig} (κ₁ κ₂ : ℕ)
    {inbk : ∀ a, (![ok, 0] : Fin 2 → ℕ) a + S256x512.size a ≤ S2048x512.size a}
    {inbi : ∀ a, (![oi, 0] : Fin 2 → ℕ) a + S256x512.size a ≤ S1024x512.size a}
    (hks : SemLoc.dma ks ∈ cellSems) (hkr : SemLoc.dma kr ∈ cellSems)
    (es : ∀ d, (rd m).payload ((c : Thread nD τ), .dma ks) 0 d = iprop(∃ f, pt (sAt oi inbi) c f))
    (er : ∀ d : Dev nD, yOf d = 1 - yOf c → (rd m).payload ((d : Thread nD τ), .dma kr) 0 () = landed m ok oi d inbk inbi)
    {hsc : (oAt ok inbk : Memref sig (Dev.tc n : Thread nD τ).2.kind .hbm S256x512 .bf16).view.ref.isScScratch = false}
    {hsrc : (sAt oi inbi).view.WordExact} {hdst : (oAt ok inbk).view.WordExact}
    {hsem : DmaTarget.Typed .vmem (.dma kr) (.remote (Dev.tc n : Thread nD τ) (oAt ok inbk) (.dma ks) hsc)}
    {α : Type} {Q : α → sProp 𝕄} {k : PUnit → Prog (TpuEff nD τ sig (Elt F) Λ₀ .tc) α}
    (O : CellTallies nD τ sig Unit) (W : Waits sig Unit) :
    iprop(cellInv ER (rd m) κ₁ ((c : Thread nD τ), .dma ks) ∗ cellInv ER (rd m) κ₂ ((peer c : Thread nD τ), .dma kr)
        ∗ pt (sAt oi inbi) c (sendHalf m c) ∗ pt (oAt ok inbk) (peer c) (m _)
        ∗ owes (c : Thread nD τ) (O + tallyAt ((peer c : Thread nD τ), .dma kr) () N) W
        ∗ dutyTok ER ((c : Thread nD τ), .dma ks) 0 () ∗ reached ER ((c : Thread nD τ), .dma ks) 0
        ∗ dutyTok ER ((peer c : Thread nD τ), .dma kr) 0 () ∗ reached ER ((peer c : Thread nD τ), .dma kr) 0)
      ⊢ iprop(((cred (tallyAt ((c : Thread nD τ), .dma ks) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sAt oi inbi) (.remote (Dev.tc n : Thread nD τ) (oAt ok inbk) (.dma ks) hsc) (.dma kr) hsrc hdst hsem) k) Q) := by
  subst hn
  exact Rounds.wp_send_pointsTo 𝒱₀ ER (rd m) (c : Thread nD τ) none (c' := (peer c : Thread nD τ)) (src := sAt oi inbi) (dst := oAt ok inbk)
    (q := fullShare) (fs := (sendHalf m c : Buf (Elt F) ((sAt oi inbi).view.loc (c : Thread nD τ))))
    (κ₁ := κ₁) (κ₂ := κ₂) (r₁ := 0) (r₂ := 0) (d₁ := ()) (d₂ := ()) (fd := m ((oAt ok inbk).view.loc (peer c : Thread nD τ)))
    (by rw [duties_cell m c _ hks]; exact Finset.mem_singleton_self _) (by rw [duties_cell m (peer c) _ hkr]; exact Finset.mem_singleton_self _)
    () () N rfl (amount_dma m c ks ()) (amount_dma m (peer c) kr ()) O rfl (W := W)
    (by rw [es]; iintro H; iexists _; iexact H)
    (Entails.of_eq (by rw [er (peer c) (yOf_peer c)]; unfold landed; rw [peer_peer]))

end Cert.Kernel.A2A

end
-- ==== Proof.Bits.Staged.lean ====
import proofs.«900490_g7700000000000491_dist_a2a_v7x_xyz2x2x2_y_m1024_n512_bf16_1_alg».proof.Proof.Bits.Schedule
import Idealize.ShloMosaic.Lib.Writes
import Idealize.ShloMosaic.Lib.ValueIdx
import Idealize.ShloMosaic.Lib.Pipeline.Value

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

/-- Every staged payload is the change of format, element by element. -/
theorem cvt_pay (v : Vec F S256x512 .f32) :
    shapeCast S256x512 (truncf .bf16 v bitsLt_bf16_f32) shapeCasts_S256x512_S256x512 = fun i => cvt (v i) := by
  rw [shapeCast_self]
  rfl

theorem load_apply (r0 C : ℕ)
    (h2 : ∀ a, (![r0, C] : Fin 2 → ℕ) a + S256x512.size a ≤ S1024x1024.size a)
    (h3 : ∀ a, (![r0, 0] : Fin 2 → ℕ) a + S256x1024.size a ≤ S1024x1024.size a)
    (G : (A2.slice (Rect.unit (s := S1024x1024) ![r0, 0] S256x1024.size h3) (fun _ => rfl)).view.ty.Contents (Elt F))
    (X : S1024x1024.Idx → Elt F .f32) (x : S256x512.Idx) :
    View.readAt (Elt F) A2.view (Rect.unit (s := S1024x1024) ![r0, C] S256x512.size h2).toLoadRect
      ((A2.slice (Rect.unit (s := S1024x1024) ![r0, 0] S256x1024.size h3) (fun _ => rfl)).view.writes (Elt F) G
        [⟨Rect.whole S256x1024, ReadAs.same.apply (View.read (Elt F) (A0.slice (Rect.unit (s := S1024x1024) ![r0, 0] S256x1024.size h3) (fun _ => rfl)).view X)⟩]) x
      = X (ix2 (⟨r0 + (x 0).val, by have := h2 0; have := (x 0).isLt; simp at *; omega⟩ : Fin 1024) (⟨C + (x 1).val, by have := h2 1; have := (x 1).isLt; simp at *; omega⟩ : Fin 1024)) := by

  have hC : C + (x 1).val < 1024 := by have := h2 1; have := (x 1).isLt; simp at *; omega
  let y : S256x1024.Idx := ix2 (⟨(x 0).val, (x 0).isLt⟩ : Fin 256) (⟨C + (x 1).val, hC⟩ : Fin 1024)
  have hidx : (Rect.unit (s := S1024x1024) ![r0, C] S256x512.size h2).toLoadRect.idx x
      = (Rect.unit (s := S1024x1024) ![r0, 0] S256x1024.size h3).emb ((Rect.whole S256x1024).emb y) := by
    funext a; apply Fin.ext
    match a with
    | ⟨0, _⟩ => show r0 + 1 * (x 0).val = r0 + 1 * (0 + 1 * (x 0).val); omega
    | ⟨1, _⟩ => show C + 1 * (x 1).val = 0 + 1 * (0 + 1 * (C + (x 1).val)); omega
  rw [View.readAt_apply, hidx]
  have key := View.read_writes_cons_emb (A2.slice (Rect.unit (s := S1024x1024) ![r0, 0] S256x1024.size h3) (fun _ => rfl)).view G (Rect.whole S256x1024)
    (ReadAs.same.apply (View.read (Elt F) (A0.slice (Rect.unit (s := S1024x1024) ![r0, 0] S256x1024.size h3) (fun _ => rfl)).view X)) [] y

  refine key.trans ?_

  show X ((Rect.unit (s := S1024x1024) ![r0, 0] S256x1024.size h3).emb y) = X _
  refine congrArg X ?_
  funext a; apply Fin.ext
  match a with
  | ⟨0, _⟩ => show r0 + 1 * (x 0).val = r0 + (x 0).val; omega
  | ⟨1, _⟩ => show 0 + 1 * (C + (x 1).val) = C + (x 1).val; omega

theorem write_apply3 (r0 : ℕ) (h1 : ∀ a, (![r0, 0] : Fin 2 → ℕ) a + S256x512.size a ≤ S1024x512.size a)
    (s : (A3.access (Rect.unit (s := S1024x512) ![r0, 0] S256x512.size h1)).ty.Contents (Elt F))
    (w : S256x512.Idx → Elt F .bf16) (j : S1024x512.Idx)
    (hj : j ∈ (A3.access (Rect.unit (s := S1024x512) ![r0, 0] S256x512.size h1)).set) :
    ∃ x : S256x512.Idx, (j 0).val = r0 + (x 0).val ∧ (j 1).val = (x 1).val ∧
      View.write (Elt F) (A3.access (Rect.unit (s := S1024x512) ![r0, 0] S256x512.size h1)) s w Finset.univ j = w x := by
  obtain ⟨x, -, rfl⟩ := Finset.mem_map.mp hj
  refine ⟨x, ?_, ?_, ?_⟩
  · show r0 + 1 * (x 0).val = r0 + (x 0).val; omega
  · show 0 + 1 * (x 1).val = (x 1).val; omega
  · rw [View.write_emb_of_mem _ _ (Finset.mem_univ x)]
    exact cast_eq _ _

theorem write_apply4 (r0 : ℕ) (h1 : ∀ a, (![r0, 0] : Fin 2 → ℕ) a + S256x512.size a ≤ S1024x512.size a)
    (s : (A4.access (Rect.unit (s := S1024x512) ![r0, 0] S256x512.size h1)).ty.Contents (Elt F))
    (w : S256x512.Idx → Elt F .bf16) (j : S1024x512.Idx)
    (hj : j ∈ (A4.access (Rect.unit (s := S1024x512) ![r0, 0] S256x512.size h1)).set) :
    ∃ x : S256x512.Idx, (j 0).val = r0 + (x 0).val ∧ (j 1).val = (x 1).val ∧
      View.write (Elt F) (A4.access (Rect.unit (s := S1024x512) ![r0, 0] S256x512.size h1)) s w Finset.univ j = w x := by
  obtain ⟨x, -, rfl⟩ := Finset.mem_map.mp hj
  refine ⟨x, ?_, ?_, ?_⟩
  · show r0 + 1 * (x 0).val = r0 + (x 0).val; omega
  · show 0 + 1 * (x 1).val = (x 1).val; omega
  · rw [View.write_emb_of_mem _ _ (Finset.mem_univ x)]
    exact cast_eq _ _

variable (m : (ℓ : Loc nD τ sig) → Buf (Elt F) ℓ)

theorem staged3 (r0 C : ℕ)
    (h1 : ∀ a, (![r0, 0] : Fin 2 → ℕ) a + S256x512.size a ≤ S1024x512.size a)
    (h2 : ∀ a, (![r0, C] : Fin 2 → ℕ) a + S256x512.size a ≤ S1024x1024.size a)
    (h3 : ∀ a, (![r0, 0] : Fin 2 → ℕ) a + S256x1024.size a ≤ S1024x1024.size a)
    (pay : Vec F S256x512 .f32 → FVec F S256x512 .bf16) (hpay : ∀ v, pay v = fun i => cvt (v i))
    (c : Dev nD) (y : ℕ) (hC : C = 512 * (y % 2))
    (s : (A3.access (Rect.unit (s := S1024x512) ![r0, 0] S256x512.size h1)).ty.Contents (Elt F))
    (G : (A2.slice (Rect.unit (s := S1024x1024) ![r0, 0] S256x1024.size h3) (fun _ => rfl)).view.ty.Contents (Elt F)) :
    ∀ j ∈ (A3.access (Rect.unit (s := S1024x512) ![r0, 0] S256x512.size h1)).set,
      (View.write (Elt F) (A3.access (Rect.unit (s := S1024x512) ![r0, 0] S256x512.size h1)) s
        (pay (View.readAt (Elt F) A2.view (Rect.unit (s := S1024x1024) ![r0, C] S256x512.size h2).toLoadRect
          ((A2.slice (Rect.unit (s := S1024x1024) ![r0, 0] S256x1024.size h3) (fun _ => rfl)).view.writes (Elt F) G
            [⟨Rect.whole S256x1024, ReadAs.same.apply (View.read (Elt F) (A0.slice (Rect.unit (s := S1024x1024) ![r0, 0] S256x1024.size h3) (fun _ => rfl)).view
              (m ((A0.slice (Rect.unit (s := S1024x1024) ![r0, 0] S256x1024.size h3) (fun _ => rfl)).view.loc (c : Thread nD τ))))⟩])))
        Finset.univ) j = colsOf (m ((c : Thread nD τ).loc main_arg0)) y j := by
  intro j hj
  obtain ⟨x, hx0, hx1, hw⟩ := write_apply3 r0 h1 s _ j hj
  refine hw.trans ?_
  refine (congrFun (hpay _) x).trans ?_
  refine (congrArg cvt (load_apply r0 C h2 h3 G _ x)).trans ?_
  refine congrArg (fun i => cvt (m ((c : Thread nD τ).loc main_arg0) i)) ?_
  funext a; apply Fin.ext
  match a with
  | ⟨0, _⟩ => exact hx0.symm
  | ⟨1, _⟩ => show C + (x 1).val = 512 * (y % 2) + (j 1).val; omega

theorem staged4 (r0 C : ℕ)
    (h1 : ∀ a, (![r0, 0] : Fin 2 → ℕ) a + S256x512.size a ≤ S1024x512.size a)
    (h2 : ∀ a, (![r0, C] : Fin 2 → ℕ) a + S256x512.size a ≤ S1024x1024.size a)
    (h3 : ∀ a, (![r0, 0] : Fin 2 → ℕ) a + S256x1024.size a ≤ S1024x1024.size a)
    (pay : Vec F S256x512 .f32 → FVec F S256x512 .bf16) (hpay : ∀ v, pay v = fun i => cvt (v i))
    (c : Dev nD) (y : ℕ) (hC : C = 512 * (y % 2))
    (s : (A4.access (Rect.unit (s := S1024x512) ![r0, 0] S256x512.size h1)).ty.Contents (Elt F))
    (G : (A2.slice (Rect.unit (s := S1024x1024) ![r0, 0] S256x1024.size h3) (fun _ => rfl)).view.ty.Contents (Elt F)) :
    ∀ j ∈ (A4.access (Rect.unit (s := S1024x512) ![r0, 0] S256x512.size h1)).set,
      (View.write (Elt F) (A4.access (Rect.unit (s := S1024x512) ![r0, 0] S256x512.size h1)) s
        (pay (View.readAt (Elt F) A2.view (Rect.unit (s := S1024x1024) ![r0, C] S256x512.size h2).toLoadRect
          ((A2.slice (Rect.unit (s := S1024x1024) ![r0, 0] S256x1024.size h3) (fun _ => rfl)).view.writes (Elt F) G
            [⟨Rect.whole S256x1024, ReadAs.same.apply (View.read (Elt F) (A0.slice (Rect.unit (s := S1024x1024) ![r0, 0] S256x1024.size h3) (fun _ => rfl)).view
              (m ((A0.slice (Rect.unit (s := S1024x1024) ![r0, 0] S256x1024.size h3) (fun _ => rfl)).view.loc (c : Thread nD τ))))⟩])))
        Finset.univ) j = colsOf (m ((c : Thread nD τ).loc main_arg0)) y j := by
  intro j hj
  obtain ⟨x, hx0, hx1, hw⟩ := write_apply4 r0 h1 s _ j hj
  refine hw.trans ?_
  refine (congrFun (hpay _) x).trans ?_
  refine (congrArg cvt (load_apply r0 C h2 h3 G _ x)).trans ?_
  refine congrArg (fun i => cvt (m ((c : Thread nD τ).loc main_arg0) i)) ?_
  funext a; apply Fin.ext
  match a with
  | ⟨0, _⟩ => exact hx0.symm
  | ⟨1, _⟩ => show C + (x 1).val = 512 * (y % 2) + (j 1).val; omega

end Cert.Kernel.A2A

end
-- ==== Proof.Bits.Kept.lean ====
import proofs.«900490_g7700000000000491_dist_a2a_v7x_xyz2x2x2_y_m1024_n512_bf16_1_alg».proof.Proof.Bits.Pieces
import proofs.«900490_g7700000000000491_dist_a2a_v7x_xyz2x2x2_y_m1024_n512_bf16_1_alg».proof.Proof.Bits.Staged

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

/-- Rows `oi …` of the kept-half scratch, at contents that agree there with `S`, written onto rows `ok …` of the result array: row `r` holds row `r - ok + oi` of `S`. -/
theorem own_l {ok oi : ℕ} {inbk : ∀ a, (![ok, 0] : Fin 2 → ℕ) a + S256x512.size a ≤ S2048x512.size a}
    {inbi : ∀ a, (![oi, 0] : Fin 2 → ℕ) a + S256x512.size a ≤ S1024x512.size a}
    (V : A1.view.ty.Contents (Elt F)) (T : A4.view.ty.Contents (Elt F)) (S : S1024x512.Idx → Elt F .bf16)
    (hT : ∀ i ∈ (A4.view.slice (Rect.unit (s := S1024x512) ![oi, 0] S256x512.size inbi)).set, T i = S i)
    (j : S2048x512.Idx) (r : Fin 1024)
    (hj : j ∈ (A1.view.slice (Rect.unit (s := S2048x512) ![ok, 0] S256x512.size inbk)).set)
    (hr : r.val + ok = (j 0).val + oi) :
    ((A1.view.slice (Rect.unit (s := S2048x512) ![ok, 0] S256x512.size inbk) : View sig .tc .hbm S256x512 .bf16).writes (Elt F) V
      [⟨Rect.whole S256x512, ReadAs.same.apply (View.read (Elt F)
        (A4.view.slice (Rect.unit (s := S1024x512) ![oi, 0] S256x512.size inbi) : View sig .tc .vmem S256x512 .bf16) T)⟩]) j
      = S (ix2 r (j 1)) := by
  obtain ⟨y, rfl⟩ := View.exists_emb_of_mem_set _ hj
  have h0 : r.val + ok = (ok + 1 * (y 0).val) + oi := hr
  have key := View.write_emb_of_mem
    (v := ((A1.view.slice (Rect.unit (s := S2048x512) ![ok, 0] S256x512.size inbk) : View sig .tc .hbm S256x512 .bf16).slice (Rect.whole S256x512)))
    (Val := Elt F) V
    (ReadAs.same.apply (View.read (Elt F)
      (A4.view.slice (Rect.unit (s := S1024x512) ![oi, 0] S256x512.size inbi) : View sig .tc .vmem S256x512 .bf16) T))
    (M := Finset.univ) (x := y) (Finset.mem_univ y)
  have hy : ((A1.view.slice (Rect.unit (s := S2048x512) ![ok, 0] S256x512.size inbk) : View sig .tc .hbm S256x512 .bf16).slice (Rect.whole S256x512)).emb y
      = (A1.view.slice (Rect.unit (s := S2048x512) ![ok, 0] S256x512.size inbk)).emb y := by
    show (A1.view.slice (Rect.unit (s := S2048x512) ![ok, 0] S256x512.size inbk)).emb ((Rect.whole S256x512).emb y) = _
    rw [Rect.emb_whole_apply]
  rw [hy] at key
  rw [View.writes_singleton]
  refine key.trans ?_
  have e : (A4.view.slice (Rect.unit (s := S1024x512) ![oi, 0] S256x512.size inbi)).emb y
      = ix2 r ((A1.view.slice (Rect.unit (s := S2048x512) ![ok, 0] S256x512.size inbk)).emb y 1) := by
    funext a
    match a with
    | ⟨0, _⟩ => exact Fin.ext (by show oi + 1 * (y 0).val = r.val; omega)
    | ⟨1, _⟩ => exact Fin.ext rfl
  show _root_.cast _ (_root_.cast _ (T ((A4.view.slice (Rect.unit (s := S1024x512) ![oi, 0] S256x512.size inbi)).emb y))) = _
  rw [hT _ (View.emb_mem_set _ y), e]; rfl

variable (m : (ℓ : Loc nD τ sig) → Buf (Elt F) ℓ)

/-- The device's own rows `oi …`, columns `512 · y …` of its input block, copied to row `1024 · y + oi` of its result array, are the final contents there. -/
theorem own_outF (c : Dev nD) {ok oi C : ℕ}
    {inbk : ∀ a, (![ok, 0] : Fin 2 → ℕ) a + S256x512.size a ≤ S2048x512.size a}
    {h1 : ∀ a, (![oi, 0] : Fin 2 → ℕ) a + S256x512.size a ≤ S1024x512.size a}
    {h2 : ∀ a, (![oi, C] : Fin 2 → ℕ) a + S256x512.size a ≤ S1024x1024.size a}
    {h3 : ∀ a, (![oi, 0] : Fin 2 → ℕ) a + S256x1024.size a ≤ S1024x1024.size a}
    (pay : Vec F S256x512 .f32 → FVec F S256x512 .bf16) (hpay : ∀ v, pay v = fun i => cvt (v i))
    (hC : C = 512 * (yOf c % 2)) (hok : ok = 1024 * yOf c + oi)
    (V : A1.view.ty.Contents (Elt F))
    (l : (A4.access (Rect.unit (s := S1024x512) ![oi, 0] S256x512.size h1)).ty.Contents (Elt F))
    (G : (A2.slice (Rect.unit (s := S1024x1024) ![oi, 0] S256x1024.size h3) (fun _ => rfl)).view.ty.Contents (Elt F)) :
    ∀ j ∈ (A1.view.slice (Rect.unit (s := S2048x512) ![ok, 0] S256x512.size inbk)).set,
      ((A1.view.slice (Rect.unit (s := S2048x512) ![ok, 0] S256x512.size inbk) : View sig .tc .hbm S256x512 .bf16).writes (Elt F) V
        [⟨Rect.whole S256x512, ReadAs.same.apply (View.read (Elt F)
          (A4.view.slice (Rect.unit (s := S1024x512) ![oi, 0] S256x512.size h1) : View sig .tc .vmem S256x512 .bf16)
          (View.write (Elt F) (A4.access (Rect.unit (s := S1024x512) ![oi, 0] S256x512.size h1)) l
            (pay (View.readAt (Elt F) A2.view (Rect.unit (s := S1024x1024) ![oi, C] S256x512.size h2).toLoadRect
              ((A2.slice (Rect.unit (s := S1024x1024) ![oi, 0] S256x1024.size h3) (fun _ => rfl)).view.writes (Elt F) G
                [⟨Rect.whole S256x1024, ReadAs.same.apply (View.read (Elt F) (A0.slice (Rect.unit (s := S1024x1024) ![oi, 0] S256x1024.size h3) (fun _ => rfl)).view
                  (m ((A0.slice (Rect.unit (s := S1024x1024) ![oi, 0] S256x1024.size h3) (fun _ => rfl)).view.loc (c : Thread nD τ))))⟩])))
            Finset.univ))⟩]) j = outF m c j := by
  intro j hj
  have hm := (Cut.mem_rows (View.set_slice_whole _ _) j).mp hj
  have hi : oi + 256 ≤ 1024 := h1 0
  rw [outF_keep m c j (by omega)]
  exact own_l V _ (keepHalf m c) (staged4 m oi C h1 h2 h3 pay hpay c (yOf c) hC l G) j _ hj
    (by show (j 0).val % 1024 + ok = (j 0).val + oi; omega)

end Cert.Kernel.A2A

end
-- ==== Proof.Bits.Body0.lean ====
import proofs.«900490_g7700000000000491_dist_a2a_v7x_xyz2x2x2_y_m1024_n512_bf16_1_alg».proof.Proof.Bits.Sends
import proofs.«900490_g7700000000000491_dist_a2a_v7x_xyz2x2x2_y_m1024_n512_bf16_1_alg».proof.Proof.Bits.Staged
import proofs.«900490_g7700000000000491_dist_a2a_v7x_xyz2x2x2_y_m1024_n512_bf16_1_alg».proof.Proof.Bits.Kept

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ)

attribute [local sl_canon] dev1_eq dev2_eq dev3_eq dev4_eq dev5_eq

set_option maxHeartbeats 4000000 in
set_option sl_exec.dischHeartbeats 100000 in
theorem body_y0 (K : Dev nD × Fin 9 → ℕ) (c : Dev nD) (hy : yOf c = 0) (W : Waits sig Unit) (Kt : PUnit → sProp 𝕄) :
    iprop(ghost m K c ∗ waitCred c ∗ levAts L lv ∗ ownZero c ∗ inBlocks m c ∗ scratchBlocks c ∗ outBlocks₀ m c ∗ owes (c : Thread nD τ) (O₀ c) W
        ∗ ((Φ₁ m c ∗ ∃ W', owes (c : Thread nD τ) 0 W') -∗ Kt ⟨⟩))
      ⊢ wp frame (wpE (defs₀ (F := F)) 𝒱₀ c none) Set.univ
          (cc0_body A0 (Memref.isWhole_whole _) A1 (Memref.isWhole_whole _) A2 (Memref.isWhole_whole _) A3 (Memref.isWhole_whole _) A4 (Memref.isWhole_whole _)
            cc0_scratch3 cc0_scratch4 cc0_scratch5 cc0_scratch6) Kt := by
  have hc : k0_cond1 c = 1#1 := (cond1_iff c).mpr hy
  have hc2 : ¬ k0_cond2 c = 1#1 := fun h => by have := (cond2_iff c).mp h; omega
  rw [cc0_body_eq_skeleton]; unfold cc0_body_skel
  unfold ghost invs positions reachedMarks payToks waitCred ownZero inBlocks scratchBlocks outBlocks₀ O₀ pt
  iintro ⟨⟨⟨#HIbar, #HIs0, #HIs1, #HIs2, #HIs3, #HIr0, #HIr1, #HIr2, #HIr3, #HIbarP, #HIrP0, #HIrP1, #HIrP2, #HIrP3⟩, ⟨HatB, HatS0, HatS1, HatS2, HatS3, HatR0, HatR1, HatR2, HatR3⟩, ⟨#HrBP, #HrRP0, #HrRP1, #HrRP2, #HrRP3, #HrS0, #HrS1, #HrS2, #HrS3⟩, ⟨HtBP, HtRP0, HtRP1, HtRP2, HtRP3, HtS0, HtS1, HtS2, HtS3⟩⟩, ⟨HcB, HcR0, HcR1, HcR2, HcR3⟩, #Hlev, ⟨Hz0, Hz1, Hz2, Hz3, Hz12, Hz13, Hz14, Hz15⟩, ⟨Hx0, Hx1, Hx2, Hx3⟩, ⟨⟨%g0, Hv0⟩, ⟨%g1, Hv1⟩, ⟨%g2, Hv2⟩, ⟨%g3, Hv3⟩, ⟨%s0, Hs0⟩, ⟨%s1, Hs1⟩, ⟨%s2, Hs2⟩, ⟨%s3, Hs3⟩, ⟨%l0, Hl0⟩, ⟨%l1, Hl1⟩, ⟨%l2, Hl2⟩, ⟨%l3, Hl3⟩⟩, ⟨Ho0, Ho1, Ho2, Ho3, Ho4, Ho5, Ho6, Ho7⟩, HO, Hk⟩

  ihave HtS0a := (aside_intro _) $$ HtS0
  ihave HtRP0a := (aside_intro _) $$ HtRP0
  ihave HtS1a := (aside_intro _) $$ HtS1
  ihave HtRP1a := (aside_intro _) $$ HtRP1
  ihave HtS2a := (aside_intro _) $$ HtS2
  ihave HtRP2a := (aside_intro _) $$ HtRP2
  ihave HtS3a := (aside_intro _) $$ HtS3
  ihave HtRP3a := (aside_intro _) $$ HtRP3
  have hmw : ∀ (sm : SemLoc sig) (O : CellTallies nD τ sig Unit), sm ∉ arrSems → OnArrivals O →
      ((levAts L lv : sProp 𝕄) ⊢ MayWait (c : Thread nD τ) sm () O) := fun sm O h1 h2 => mayWait_of_onArrivals c sm O h1 h2

  sl_exec (disch := first
    | ((repeat' (first | exact onArrivals_zero | exact onArrivals_tally _ _ (by decide) _ | apply onArrivals_add)); done)
    | exact dev1_eq c hc | exact dev2_eq c hc | exact dev3_eq c hc | exact dev4_eq c hc | exact dev5_eq c hc
    | decide)

  ihave Hs0c := (pt_to c ssl0 (sendHalf m c) (fun j hj => by sl_unfold_run_names; exact staged3 m 0 512 _ _ _ k0_pay1 cvt_pay c (1 - yOf c) (by rw [hy]) _ _ j hj)) $$ Hs0
  ihave HtS0 := (aside_elim _) $$ HtS0a
  ihave HtRP0 := (aside_elim _) $$ HtRP0a
  iapply (wp_send m c (peer c) rfl (K (c, 1)) (K (peer c, 5)) (by decide) (by decide) (payloadT_send0 m c) (fun d h => payloadT_recv0_y1 m d (h.trans (by rw [hy])) ()) _ _) $$ [HO HtS0 HtRP0 Hs0c HatB_pay1]
  · iframe # ∗
  iintro ⟨HcS0, HO⟩
  iapply (le_wp_ret _ _)
  sl_exec (disch := first
    | ((repeat' (first | exact onArrivals_zero | exact onArrivals_tally _ _ (by decide) _ | apply onArrivals_add)); done)
    | exact dev1_eq c hc | exact dev2_eq c hc | exact dev3_eq c hc | exact dev4_eq c hc | exact dev5_eq c hc
    | decide)

  ihave Hs1c := (pt_to c ssl1 (sendHalf m c) (fun j hj => by sl_unfold_run_names; exact staged3 m 256 512 _ _ _ k0_pay2 cvt_pay c (1 - yOf c) (by rw [hy]) _ _ j hj)) $$ Hs1
  ihave HtS1 := (aside_elim _) $$ HtS1a
  ihave HtRP1 := (aside_elim _) $$ HtRP1a
  iapply (wp_send m c (peer c) rfl (K (c, 2)) (K (peer c, 6)) (by decide) (by decide) (payloadT_send1 m c) (fun d h => payloadT_recv1_y1 m d (h.trans (by rw [hy])) ()) _ _) $$ [HO HtS1 HtRP1 Hs1c HatB_pay2]
  · iframe # ∗
  iintro ⟨HcS1, HO⟩
  sl_exec (disch := first
    | ((repeat' (first | exact onArrivals_zero | exact onArrivals_tally _ _ (by decide) _ | apply onArrivals_add)); done)
    | exact dev1_eq c hc | exact dev2_eq c hc | exact dev3_eq c hc | exact dev4_eq c hc | exact dev5_eq c hc
    | decide)

  ihave Hs2c := (pt_to c ssl2 (sendHalf m c) (fun j hj => by sl_unfold_run_names; exact staged3 m 512 512 _ _ _ k0_pay3 cvt_pay c (1 - yOf c) (by rw [hy]) _ _ j hj)) $$ Hs2
  ihave HtS2 := (aside_elim _) $$ HtS2a
  ihave HtRP2 := (aside_elim _) $$ HtRP2a
  iapply (wp_send m c (peer c) rfl (K (c, 3)) (K (peer c, 7)) (by decide) (by decide) (payloadT_send2 m c) (fun d h => payloadT_recv2_y1 m d (h.trans (by rw [hy])) ()) _ _) $$ [HO HtS2 HtRP2 Hs2c HatB_pay3]
  · iframe # ∗
  iintro ⟨HcS2, HO⟩
  sl_exec (disch := first
    | ((repeat' (first | exact onArrivals_zero | exact onArrivals_tally _ _ (by decide) _ | apply onArrivals_add)); done)
    | exact dev1_eq c hc | exact dev2_eq c hc | exact dev3_eq c hc | exact dev4_eq c hc | exact dev5_eq c hc
    | decide)

  ihave Hs3c := (pt_to c ssl3 (sendHalf m c) (fun j hj => by sl_unfold_run_names; exact staged3 m 768 512 _ _ _ k0_pay4 cvt_pay c (1 - yOf c) (by rw [hy]) _ _ j hj)) $$ Hs3
  ihave HtS3 := (aside_elim _) $$ HtS3a
  ihave HtRP3 := (aside_elim _) $$ HtRP3a
  iapply (wp_send m c (peer c) rfl (K (c, 4)) (K (peer c, 8)) (by decide) (by decide) (payloadT_send3 m c) (fun d h => payloadT_recv3_y1 m d (h.trans (by rw [hy])) ()) _ _) $$ [HO HtS3 HtRP3 Hs3c HatB_pay4]
  · iframe # ∗
  iintro ⟨HcS3, HO⟩
  sl_exec (disch := first
    | ((repeat' (first | exact onArrivals_zero | exact onArrivals_tally _ _ (by decide) _ | apply onArrivals_add)); done)
    | exact dev1_eq c hc | exact dev2_eq c hc | exact dev3_eq c hc | exact dev4_eq c hc | exact dev5_eq c hc
    | decide)

  imod (Rounds.cell_close ER (rd m) (Set.mem_univ (K (c, 1))) (fun h => h) (R := 0 + 1) (duties_later m (sendCell0 c))) $$ [HatS0] with HzS0
  · iframe # ∗
  imod (Rounds.cell_close ER (rd m) (Set.mem_univ (K (c, 2))) (fun h => h) (R := 0 + 1) (duties_later m (sendCell1 c))) $$ [HatS1] with HzS1
  · iframe # ∗
  imod (Rounds.cell_close ER (rd m) (Set.mem_univ (K (c, 3))) (fun h => h) (R := 0 + 1) (duties_later m (sendCell2 c))) $$ [HatS2] with HzS2
  · iframe # ∗
  imod (Rounds.cell_close ER (rd m) (Set.mem_univ (K (c, 4))) (fun h => h) (R := 0 + 1) (duties_later m (sendCell3 c))) $$ [HatS3] with HzS3
  · iframe # ∗
  imod (Rounds.cell_close ER (rd m) (Set.mem_univ (K (c, 5))) (fun h => h) (R := 0 + 1) (duties_later m (recvCell0 c))) $$ [HatR0] with HzR0
  · iframe # ∗
  imod (Rounds.cell_close ER (rd m) (Set.mem_univ (K (c, 6))) (fun h => h) (R := 0 + 1) (duties_later m (recvCell1 c))) $$ [HatR1] with HzR1
  · iframe # ∗
  imod (Rounds.cell_close ER (rd m) (Set.mem_univ (K (c, 7))) (fun h => h) (R := 0 + 1) (duties_later m (recvCell2 c))) $$ [HatR2] with HzR2
  · iframe # ∗
  imod (Rounds.cell_close ER (rd m) (Set.mem_univ (K (c, 8))) (fun h => h) (R := 0 + 1) (duties_later m (recvCell3 c))) $$ [HatR3] with HzR3
  · iframe # ∗
  iapply (le_wp_ret _ _)

  ihave Hn0 := (pt_to c osl0 (outF m c) (fun j hj => by sl_unfold_run_names; exact own_outF m c k0_pay5 cvt_pay (by rw [hy]) (by rw [hy]) _ _ _ j hj)) $$ Ho0
  ihave Hn4 := (pt_to c osl4 (outF m c) (landed_outF m c (by rw [hy]) _)) $$ HatR0_pay1
  ihave Hn1 := (pt_to c osl1 (outF m c) (fun j hj => by sl_unfold_run_names; exact own_outF m c k0_pay6 cvt_pay (by rw [hy]) (by rw [hy]) _ _ _ j hj)) $$ Ho1
  ihave Hn5 := (pt_to c osl5 (outF m c) (landed_outF m c (by rw [hy]) _)) $$ HatR1_pay1
  ihave Hn2 := (pt_to c osl2 (outF m c) (fun j hj => by sl_unfold_run_names; exact own_outF m c k0_pay7 cvt_pay (by rw [hy]) (by rw [hy]) _ _ _ j hj)) $$ Ho2
  ihave Hn6 := (pt_to c osl6 (outF m c) (landed_outF m c (by rw [hy]) _)) $$ HatR2_pay1
  ihave Hn3 := (pt_to c osl3 (outF m c) (fun j hj => by sl_unfold_run_names; exact own_outF m c k0_pay8 cvt_pay (by rw [hy]) (by rw [hy]) _ _ _ j hj)) $$ Ho3
  ihave Hn7 := (pt_to c osl7 (outF m c) (landed_outF m c (by rw [hy]) _)) $$ HatR3_pay1
  iapply Hk
  unfold Φ₁ ownZero cellsZero inBlocks scratchBlocks outBlocks₁
  iframe
  isplitr [HO]
  · isplitl [Hv0]; · iexists _; iexact Hv0
    isplitl [Hv1]; · iexists _; iexact Hv1
    isplitl [Hv2]; · iexists _; iexact Hv2
    isplitl [Hv3]; · iexists _; iexact Hv3
    isplitl [HatS0_pay1]; · iexists _; iexact HatS0_pay1
    isplitl [HatS1_pay1]; · iexists _; iexact HatS1_pay1
    isplitl [HatS2_pay1]; · iexists _; iexact HatS2_pay1
    isplitl [HatS3_pay1]; · iexists _; iexact HatS3_pay1
    isplitl [Hl0]; · iexists _; iexact Hl0
    isplitl [Hl1]; · iexists _; iexact Hl1
    isplitl [Hl2]; · iexists _; iexact Hl2
    iexists _; iexact Hl3
  · iexists _; iexact HO

end Cert.Kernel.A2A

end
-- ==== Proof.Bits.Body1.lean ====
import proofs.«900490_g7700000000000491_dist_a2a_v7x_xyz2x2x2_y_m1024_n512_bf16_1_alg».proof.Proof.Bits.Sends
import proofs.«900490_g7700000000000491_dist_a2a_v7x_xyz2x2x2_y_m1024_n512_bf16_1_alg».proof.Proof.Bits.Staged
import proofs.«900490_g7700000000000491_dist_a2a_v7x_xyz2x2x2_y_m1024_n512_bf16_1_alg».proof.Proof.Bits.Kept

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ)

attribute [local sl_canon] dev6_eq dev7_eq dev8_eq dev9_eq dev10_eq

set_option maxHeartbeats 4000000 in
set_option sl_exec.dischHeartbeats 100000 in
theorem body_y1 (K : Dev nD × Fin 9 → ℕ) (c : Dev nD) (hy : yOf c = 1) (W : Waits sig Unit) (Kt : PUnit → sProp 𝕄) :
    iprop(ghost m K c ∗ waitCred c ∗ levAts L lv ∗ ownZero c ∗ inBlocks m c ∗ scratchBlocks c ∗ outBlocks₀ m c ∗ owes (c : Thread nD τ) (O₀ c) W
        ∗ ((Φ₁ m c ∗ ∃ W', owes (c : Thread nD τ) 0 W') -∗ Kt ⟨⟩))
      ⊢ wp frame (wpE (defs₀ (F := F)) 𝒱₀ c none) Set.univ
          (cc0_body A0 (Memref.isWhole_whole _) A1 (Memref.isWhole_whole _) A2 (Memref.isWhole_whole _) A3 (Memref.isWhole_whole _) A4 (Memref.isWhole_whole _)
            cc0_scratch3 cc0_scratch4 cc0_scratch5 cc0_scratch6) Kt := by
  have hc1 : ¬ k0_cond1 c = 1#1 := fun h => by have := (cond1_iff c).mp h; omega
  have hc2 : k0_cond2 c = 1#1 := (cond2_iff c).mpr hy
  rw [cc0_body_eq_skeleton]; unfold cc0_body_skel
  unfold ghost invs positions reachedMarks payToks waitCred ownZero inBlocks scratchBlocks outBlocks₀ O₀ pt
  iintro ⟨⟨⟨#HIbar, #HIs0, #HIs1, #HIs2, #HIs3, #HIr0, #HIr1, #HIr2, #HIr3, #HIbarP, #HIrP0, #HIrP1, #HIrP2, #HIrP3⟩, ⟨HatB, HatS0, HatS1, HatS2, HatS3, HatR0, HatR1, HatR2, HatR3⟩, ⟨#HrBP, #HrRP0, #HrRP1, #HrRP2, #HrRP3, #HrS0, #HrS1, #HrS2, #HrS3⟩, ⟨HtBP, HtRP0, HtRP1, HtRP2, HtRP3, HtS0, HtS1, HtS2, HtS3⟩⟩, ⟨HcB, HcR0, HcR1, HcR2, HcR3⟩, #Hlev, ⟨Hz0, Hz1, Hz2, Hz3, Hz12, Hz13, Hz14, Hz15⟩, ⟨Hx0, Hx1, Hx2, Hx3⟩, ⟨⟨%g0, Hv0⟩, ⟨%g1, Hv1⟩, ⟨%g2, Hv2⟩, ⟨%g3, Hv3⟩, ⟨%s0, Hs0⟩, ⟨%s1, Hs1⟩, ⟨%s2, Hs2⟩, ⟨%s3, Hs3⟩, ⟨%l0, Hl0⟩, ⟨%l1, Hl1⟩, ⟨%l2, Hl2⟩, ⟨%l3, Hl3⟩⟩, ⟨Ho0, Ho1, Ho2, Ho3, Ho4, Ho5, Ho6, Ho7⟩, HO, Hk⟩

  ihave HtS0a := (aside_intro _) $$ HtS0
  ihave HtRP0a := (aside_intro _) $$ HtRP0
  ihave HtS1a := (aside_intro _) $$ HtS1
  ihave HtRP1a := (aside_intro _) $$ HtRP1
  ihave HtS2a := (aside_intro _) $$ HtS2
  ihave HtRP2a := (aside_intro _) $$ HtRP2
  ihave HtS3a := (aside_intro _) $$ HtS3
  ihave HtRP3a := (aside_intro _) $$ HtRP3
  have hmw : ∀ (sm : SemLoc sig) (O : CellTallies nD τ sig Unit), sm ∉ arrSems → OnArrivals O →
      ((levAts L lv : sProp 𝕄) ⊢ MayWait (c : Thread nD τ) sm () O) := fun sm O h1 h2 => mayWait_of_onArrivals c sm O h1 h2

  sl_exec (disch := first
    | ((repeat' (first | exact onArrivals_zero | exact onArrivals_tally _ _ (by decide) _ | apply onArrivals_add)); done)
    | exact dev6_eq c hc2 | exact dev7_eq c hc2 | exact dev8_eq c hc2 | exact dev9_eq c hc2 | exact dev10_eq c hc2
    | decide)

  ihave Hs0c := (pt_to c ssl0 (sendHalf m c) (fun j hj => by sl_unfold_run_names; exact staged3 m 0 0 _ _ _ k0_pay9 cvt_pay c (1 - yOf c) (by rw [hy]) _ _ j hj)) $$ Hs0
  ihave HtS0 := (aside_elim _) $$ HtS0a
  ihave HtRP0 := (aside_elim _) $$ HtRP0a
  iapply (wp_send m c (peer c) rfl (K (c, 1)) (K (peer c, 5)) (by decide) (by decide) (payloadT_send0 m c) (fun d h => payloadT_recv0_y0 m d (h.trans (by rw [hy])) ()) _ _) $$ [HO HtS0 HtRP0 Hs0c HatB_pay1]
  · iframe # ∗
  iintro ⟨HcS0, HO⟩
  iapply (le_wp_ret _ _)
  sl_exec (disch := first
    | ((repeat' (first | exact onArrivals_zero | exact onArrivals_tally _ _ (by decide) _ | apply onArrivals_add)); done)
    | exact dev6_eq c hc2 | exact dev7_eq c hc2 | exact dev8_eq c hc2 | exact dev9_eq c hc2 | exact dev10_eq c hc2
    | decide)

  ihave Hs1c := (pt_to c ssl1 (sendHalf m c) (fun j hj => by sl_unfold_run_names; exact staged3 m 256 0 _ _ _ k0_pay10 cvt_pay c (1 - yOf c) (by rw [hy]) _ _ j hj)) $$ Hs1
  ihave HtS1 := (aside_elim _) $$ HtS1a
  ihave HtRP1 := (aside_elim _) $$ HtRP1a
  iapply (wp_send m c (peer c) rfl (K (c, 2)) (K (peer c, 6)) (by decide) (by decide) (payloadT_send1 m c) (fun d h => payloadT_recv1_y0 m d (h.trans (by rw [hy])) ()) _ _) $$ [HO HtS1 HtRP1 Hs1c HatB_pay2]
  · iframe # ∗
  iintro ⟨HcS1, HO⟩
  sl_exec (disch := first
    | ((repeat' (first | exact onArrivals_zero | exact onArrivals_tally _ _ (by decide) _ | apply onArrivals_add)); done)
    | exact dev6_eq c hc2 | exact dev7_eq c hc2 | exact dev8_eq c hc2 | exact dev9_eq c hc2 | exact dev10_eq c hc2
    | decide)

  ihave Hs2c := (pt_to c ssl2 (sendHalf m c) (fun j hj => by sl_unfold_run_names; exact staged3 m 512 0 _ _ _ k0_pay11 cvt_pay c (1 - yOf c) (by rw [hy]) _ _ j hj)) $$ Hs2
  ihave HtS2 := (aside_elim _) $$ HtS2a
  ihave HtRP2 := (aside_elim _) $$ HtRP2a
  iapply (wp_send m c (peer c) rfl (K (c, 3)) (K (peer c, 7)) (by decide) (by decide) (payloadT_send2 m c) (fun d h => payloadT_recv2_y0 m d (h.trans (by rw [hy])) ()) _ _) $$ [HO HtS2 HtRP2 Hs2c HatB_pay3]
  · iframe # ∗
  iintro ⟨HcS2, HO⟩
  sl_exec (disch := first
    | ((repeat' (first | exact onArrivals_zero | exact onArrivals_tally _ _ (by decide) _ | apply onArrivals_add)); done)
    | exact dev6_eq c hc2 | exact dev7_eq c hc2 | exact dev8_eq c hc2 | exact dev9_eq c hc2 | exact dev10_eq c hc2
    | decide)

  ihave Hs3c := (pt_to c ssl3 (sendHalf m c) (fun j hj => by sl_unfold_run_names; exact staged3 m 768 0 _ _ _ k0_pay12 cvt_pay c (1 - yOf c) (by rw [hy]) _ _ j hj)) $$ Hs3
  ihave HtS3 := (aside_elim _) $$ HtS3a
  ihave HtRP3 := (aside_elim _) $$ HtRP3a
  iapply (wp_send m c (peer c) rfl (K (c, 4)) (K (peer c, 8)) (by decide) (by decide) (payloadT_send3 m c) (fun d h => payloadT_recv3_y0 m d (h.trans (by rw [hy])) ()) _ _) $$ [HO HtS3 HtRP3 Hs3c HatB_pay4]
  · iframe # ∗
  iintro ⟨HcS3, HO⟩
  sl_exec (disch := first
    | ((repeat' (first | exact onArrivals_zero | exact onArrivals_tally _ _ (by decide) _ | apply onArrivals_add)); done)
    | exact dev6_eq c hc2 | exact dev7_eq c hc2 | exact dev8_eq c hc2 | exact dev9_eq c hc2 | exact dev10_eq c hc2
    | decide)

  imod (Rounds.cell_close ER (rd m) (Set.mem_univ (K (c, 1))) (fun h => h) (R := 0 + 1) (duties_later m (sendCell0 c))) $$ [HatS0] with HzS0
  · iframe # ∗
  imod (Rounds.cell_close ER (rd m) (Set.mem_univ (K (c, 2))) (fun h => h) (R := 0 + 1) (duties_later m (sendCell1 c))) $$ [HatS1] with HzS1
  · iframe # ∗
  imod (Rounds.cell_close ER (rd m) (Set.mem_univ (K (c, 3))) (fun h => h) (R := 0 + 1) (duties_later m (sendCell2 c))) $$ [HatS2] with HzS2
  · iframe # ∗
  imod (Rounds.cell_close ER (rd m) (Set.mem_univ (K (c, 4))) (fun h => h) (R := 0 + 1) (duties_later m (sendCell3 c))) $$ [HatS3] with HzS3
  · iframe # ∗
  imod (Rounds.cell_close ER (rd m) (Set.mem_univ (K (c, 5))) (fun h => h) (R := 0 + 1) (duties_later m (recvCell0 c))) $$ [HatR0] with HzR0
  · iframe # ∗
  imod (Rounds.cell_close ER (rd m) (Set.mem_univ (K (c, 6))) (fun h => h) (R := 0 + 1) (duties_later m (recvCell1 c))) $$ [HatR1] with HzR1
  · iframe # ∗
  imod (Rounds.cell_close ER (rd m) (Set.mem_univ (K (c, 7))) (fun h => h) (R := 0 + 1) (duties_later m (recvCell2 c))) $$ [HatR2] with HzR2
  · iframe # ∗
  imod (Rounds.cell_close ER (rd m) (Set.mem_univ (K (c, 8))) (fun h => h) (R := 0 + 1) (duties_later m (recvCell3 c))) $$ [HatR3] with HzR3
  · iframe # ∗
  iapply (le_wp_ret _ _)

  ihave Hn4 := (pt_to c osl4 (outF m c) (fun j hj => by sl_unfold_run_names; exact own_outF m c k0_pay13 cvt_pay (by rw [hy]) (by rw [hy]) _ _ _ j hj)) $$ Ho4
  ihave Hn0 := (pt_to c osl0 (outF m c) (landed_outF m c (by rw [hy]) _)) $$ HatR0_pay1
  ihave Hn5 := (pt_to c osl5 (outF m c) (fun j hj => by sl_unfold_run_names; exact own_outF m c k0_pay14 cvt_pay (by rw [hy]) (by rw [hy]) _ _ _ j hj)) $$ Ho5
  ihave Hn1 := (pt_to c osl1 (outF m c) (landed_outF m c (by rw [hy]) _)) $$ HatR1_pay1
  ihave Hn6 := (pt_to c osl6 (outF m c) (fun j hj => by sl_unfold_run_names; exact own_outF m c k0_pay15 cvt_pay (by rw [hy]) (by rw [hy]) _ _ _ j hj)) $$ Ho6
  ihave Hn2 := (pt_to c osl2 (outF m c) (landed_outF m c (by rw [hy]) _)) $$ HatR2_pay1
  ihave Hn7 := (pt_to c osl7 (outF m c) (fun j hj => by sl_unfold_run_names; exact own_outF m c k0_pay16 cvt_pay (by rw [hy]) (by rw [hy]) _ _ _ j hj)) $$ Ho7
  ihave Hn3 := (pt_to c osl3 (outF m c) (landed_outF m c (by rw [hy]) _)) $$ HatR3_pay1
  iapply Hk
  unfold Φ₁ ownZero cellsZero inBlocks scratchBlocks outBlocks₁
  iframe
  isplitr [HO]
  · isplitl [Hv0]; · iexists _; iexact Hv0
    isplitl [Hv1]; · iexists _; iexact Hv1
    isplitl [Hv2]; · iexists _; iexact Hv2
    isplitl [Hv3]; · iexists _; iexact Hv3
    isplitl [HatS0_pay1]; · iexists _; iexact HatS0_pay1
    isplitl [HatS1_pay1]; · iexists _; iexact HatS1_pay1
    isplitl [HatS2_pay1]; · iexists _; iexact HatS2_pay1
    isplitl [HatS3_pay1]; · iexists _; iexact HatS3_pay1
    isplitl [Hl0]; · iexists _; iexact Hl0
    isplitl [Hl1]; · iexists _; iexact Hl1
    isplitl [Hl2]; · iexists _; iexact Hl2
    iexists _; iexact Hl3
  · iexists _; iexact HO

end Cert.Kernel.A2A

end
-- ==== Proof.Bits.Body.lean ====
import proofs.«900490_g7700000000000491_dist_a2a_v7x_xyz2x2x2_y_m1024_n512_bf16_1_alg».proof.Proof.Bits.Body0
import proofs.«900490_g7700000000000491_dist_a2a_v7x_xyz2x2x2_y_m1024_n512_bf16_1_alg».proof.Proof.Bits.Body1

noncomputable section

namespace Cert.Kernel.A2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic
open Idealize.ShloMosaic.ValueIdx

variable {F : FTy → Type} [FloatOps F]

local notation "𝕄" => MT nD τ sig Unit (Elt F) ℕ UU ℕ

variable (m : (ℓ : Loc nD τ sig) → Buf (Elt F) ℓ)

omit [FloatOps F] in

theorem bigSep_W0 (Φ : Fin cfg0.W → sProp 𝕄) : bigSep Finset.univ Φ = iprop(emp) := by
  rw [show (Finset.univ : Finset (Fin cfg0.W)) = ∅ from Finset.univ_eq_empty]; exact bigSep_empty

set_option maxRecDepth 8000 in
theorem body_obligation (c : Dev nD) : BodyObligation (dats (F := F) m 0 c) (defs₀ (F := F)) 𝒱₀ () Set.univ := fun t => by
  rw [fin_N0 t]
  rw [bigSep_W0, bigSep_W0]
  show iprop(Φ₀ m c ∗ (dats m 0 c).owesAt () t0_0.castSucc ∗ emp)
    ⊢ wp frame (wpE (defs₀ (F := F)) 𝒱₀ c none) Set.univ
      (cc0_body A0 (Memref.isWhole_whole _) A1 (Memref.isWhole_whole _) A2 (Memref.isWhole_whole _) A3 (Memref.isWhole_whole _) A4 (Memref.isWhole_whole _)
        cc0_scratch3 cc0_scratch4 cc0_scratch5 cc0_scratch6)
      (fun _ => iprop(Φ₁ m c ∗ (dats m 0 c).owesAt () t0_0.succ ∗ emp))
  unfold Φ₀
  iintro ⟨⟨⟨%K, Hg⟩, Hwc, Hlev, Hz, Hin, Hscr, Hout⟩, Ho, -⟩
  unfold Dat.owesAt Pipeline.owesWithin
  icases Ho with ⟨%W, %hW, HO⟩
  rw [show (dats m 0 c).owed t0_0.castSucc = O₀ c from rfl, show (dats m 0 c).owed t0_0.succ = 0 from rfl]
  rcases yOf_cases c with hy | hy
  on_goal 1 => iapply (body_y0 m K c hy W _)
  on_goal 2 => iapply (body_y1 m K c hy W _)
  all_goals
    iframe
    iintro ⟨HΦ, ⟨%W', HO'⟩⟩
    isplitl [HΦ]; · iexact HΦ
    isplitl [HO']
    · iexists W'; isplitr; · (ipureintro; exact fun _ _ => Or.inl trivial)
      iexact HO'
    · iempintro

end Cert.Kernel.A2A

end
-- ==== Proof.lean ====
import proofs.«900490_g7700000000000491_dist_a2a_v7x_xyz2x2x2_y_m1024_n512_bf16_1_alg».proof.Defs
import proofs.«900490_g7700000000000491_dist_a2a_v7x_xyz2x2x2_y_m1024_n512_bf16_1_alg».proof.Proof.Gen.Kernel
import proofs.«900490_g7700000000000491_dist_a2a_v7x_xyz2x2x2_y_m1024_n512_bf16_1_alg».proof.Proof.Gen.Kernel.Skeleton
import proofs.«900490_g7700000000000491_dist_a2a_v7x_xyz2x2x2_y_m1024_n512_bf16_1_alg».proof.Proof.Gen.Kernel.Launch
import proofs.«900490_g7700000000000491_dist_a2a_v7x_xyz2x2x2_y_m1024_n512_bf16_1_alg».proof.Proof.Gen.Kernel.Points
import proofs.«900490_g7700000000000491_dist_a2a_v7x_xyz2x2x2_y_m1024_n512_bf16_1_alg».proof.Proof.Gen.Kernel.Frame
import proofs.«900490_g7700000000000491_dist_a2a_v7x_xyz2x2x2_y_m1024_n512_bf16_1_alg».proof.Proof.Gen.KernelIdeal
import proofs.«900490_g7700000000000491_dist_a2a_v7x_xyz2x2x2_y_m1024_n512_bf16_1_alg».proof.Proof.Gen.KernelIdeal.Skeleton
import proofs.«900490_g7700000000000491_dist_a2a_v7x_xyz2x2x2_y_m1024_n512_bf16_1_alg».proof.Proof.Gen.KernelIdeal.Launch
import proofs.«900490_g7700000000000491_dist_a2a_v7x_xyz2x2x2_y_m1024_n512_bf16_1_alg».proof.Proof.Gen.KernelIdeal.Points
import proofs.«900490_g7700000000000491_dist_a2a_v7x_xyz2x2x2_y_m1024_n512_bf16_1_alg».proof.Proof.Gen.KernelIdeal.Frame
import proofs.«900490_g7700000000000491_dist_a2a_v7x_xyz2x2x2_y_m1024_n512_bf16_1_alg».proof.Proof.Gen.ReferenceIdeal
import proofs.«900490_g7700000000000491_dist_a2a_v7x_xyz2x2x2_y_m1024_n512_bf16_1_alg».proof.Proof.Gen.Pre_finite_inputs_Kernel
import proofs.«900490_g7700000000000491_dist_a2a_v7x_xyz2x2x2_y_m1024_n512_bf16_1_alg».proof.Proof.Gen.Pre_finite_inputs_ReferenceIdeal
import proofs.«900490_g7700000000000491_dist_a2a_v7x_xyz2x2x2_y_m1024_n512_bf16_1_alg».proof.Proof.Launch
import proofs.«900490_g7700000000000491_dist_a2a_v7x_xyz2x2x2_y_m1024_n512_bf16_1_alg».proof.Proof.Body
import proofs.«900490_g7700000000000491_dist_a2a_v7x_xyz2x2x2_y_m1024_n512_bf16_1_alg».proof.Proof.Value
import proofs.«900490_g7700000000000491_dist_a2a_v7x_xyz2x2x2_y_m1024_n512_bf16_1_alg».proof.Proof.Bits.Launch
import proofs.«900490_g7700000000000491_dist_a2a_v7x_xyz2x2x2_y_m1024_n512_bf16_1_alg».proof.Proof.Bits.Body
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs_Kernel := Cert.Pre_finite_inputs_Kernel.Gen.facts) :=
  fun m g _ => (θ_run (Cert.Kernel.defs (F := Bits)) _ _).mono (fun _ h c => (h c).2)
    (Cert.Kernel.A2A.run_main (F := Bits) m g (Cert.Kernel.A2A.body_obligation m))

theorem frame_kernelIdeal : Cert.frame_KernelIdeal (hKernelIdeal := Cert.KernelIdeal.Gen.facts) (hPre_finite_inputs_Kernel := Cert.Pre_finite_inputs_Kernel.Gen.facts) :=
  fun m g _ => (θ_run (Cert.KernelIdeal.defs (F := Ideal)) _ _).mono (fun _ h c => (h c).2)
    (Cert.KernelIdeal.A2A.run_main (F := Ideal) m g (Cert.KernelIdeal.A2A.body_obligation m))

theorem claim : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    frame_kernel, frame_kernelIdeal, Cert.KernelIdeal.A2A.Value.frame_ref, trivial,
    Cert.KernelIdeal.A2A.Value.algebraic_of_run fun m g _ =>
      Cert.KernelIdeal.A2A.run_main (F := Ideal) m g (Cert.KernelIdeal.A2A.body_obligation m)⟩

end Cert.Proof

end
